-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S2x800000 : Shape := ⟨2, ![2, 800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x4 .f32) (main_arg10 : FVec F S4 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg9
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x4 .f32) (main_arg10 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S64x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x4 .f32) (main_arg10 : FVec F S4 .f32) (main_arg11 : IVec S2x800000 32) (main_arg12 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x128 : Shape := ⟨2, ![100000, 128]⟩
abbrev S5000x64 : Shape := ⟨2, ![5000, 64]⟩
abbrev S5000x128 : Shape := ⟨2, ![5000, 128]⟩
abbrev S800000x128 : Shape := ⟨2, ![800000, 128]⟩
abbrev S100000x1 : Shape := ⟨2, ![100000, 1]⟩
abbrev S1x128 : Shape := ⟨2, ![1, 128]⟩
abbrev S1x4 : Shape := ⟨2, ![1, 4]⟩
abbrev S64x4 : Shape := ⟨2, ![64, 4]⟩
abbrev S5000x1 : Shape := ⟨2, ![5000, 1]⟩
abbrev S128x5000 : Shape := ⟨2, ![128, 5000]⟩

abbrev nBuf : Space → Nat
  | .hbm => 120
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S2x800000, .i32⟩
  | .hbm, ⟨12, _⟩ => ⟨S100000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S100000, .f32⟩
  | .hbm, ⟨21, _⟩ => ⟨S800000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S100000, .f32⟩
  | .hbm, ⟨47, _⟩ => ⟨S100000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S100000x128, .f32⟩
  | .hbm, ⟨62, _⟩ => ⟨S800000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x1, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S100000x128, .f32⟩
  | .hbm, ⟨85, _⟩ => ⟨S800000x1, .i32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x1, .f32⟩
  | .hbm, ⟨104, _⟩ => ⟨S800000x128, .f32⟩
  | .hbm, ⟨105, _⟩ => ⟨S800000x128, .f32⟩
  | .hbm, ⟨106, _⟩ => ⟨S_, .f32⟩
  | .hbm, ⟨107, _⟩ => ⟨S100000x128, .f32⟩
  | .hbm, ⟨108, _⟩ => ⟨S800000x1, .i32⟩
  | .hbm, ⟨109, _⟩ => ⟨S100000x128, .f32⟩
  | .hbm, ⟨110, _⟩ => ⟨S100000x1, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S1x128, .f32⟩
  | .hbm, ⟨115, _⟩ => ⟨S100000x128, .f32⟩
  | .hbm, ⟨116, _⟩ => ⟨S100000x1, .i32⟩
  | .hbm, ⟨117, _⟩ => ⟨S1x128, .f32⟩
  | .hbm, ⟨118, _⟩ => ⟨S1x4, .f32⟩
  | .hbm, ⟨119, _⟩ => ⟨S64x4, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S128x128, .f32⟩
  | .local _ .vmem, ⟨35, _⟩ => ⟨S1x128, .f32⟩
  | .local _ .vmem, ⟨36, _⟩ => ⟨S128x4, .f32⟩
  | .local _ .vmem, ⟨37, _⟩ => ⟨S1x4, .f32⟩
  | .local _ .vmem, ⟨38, _⟩ => ⟨S64x4, .f32⟩
  | .local _ .vmem, ⟨39, _⟩ => ⟨S128x128, .f32⟩
  | .local _ .vmem, ⟨40, _⟩ => ⟨S128x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_11 : Ref sig .tc := ⟨.hbm, 94, rfl⟩
abbrev main_v68 : Ref sig .tc := ⟨.hbm, 95, rfl⟩
abbrev main_v69 : Ref sig .tc := ⟨.hbm, 96, rfl⟩
abbrev main_c_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg5_0 : Ref sig .tc := ⟨.vmem, 37, rfl⟩
abbrev cc6_stg6_0 : Ref sig .tc := ⟨.vmem, 38, rfl⟩
abbrev cc6_scratch0 : Ref sig .tc := ⟨.vmem, 39, rfl⟩
abbrev cc6_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36
abbrev cc6_sem5_0 : DmaSem sig := 37
abbrev cc6_sem6_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_14 : BitVec 32 := 0#32
  let v31 : BitVec 1 := Scalar.cmpi .ne v30 c0_i32_14
  v31

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x4 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x4 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x4 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  shapeCasts_S4_S1x4 : S4.ShapeCasts S1x4
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  transposes_S5000x128_p1_0_S128x5000 : S5000x128.Transposes [1, 0] S128x5000
  inb_S128x128_S64x128_0_0 : ∀ a, (![0, 0] : Fin 2 → Nat) a + S64x128.size a ≤ S128x128.size a
  broadcasts_S1x128_S64x128 : S1x128.Broadcasts S64x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  inb_S64x4_S64x4_0_0 : ∀ a, (![0, 0] : Fin 2 → Nat) a + S64x4.size a ≤ S64x4.size a
  h_S64x4 : 0 < S64x4.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x64_S64x128_S5000x128_1_0_0_1_n_n_wf : DotDims.WF S5000x64 S64x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S128x5000_S5000x128_S128x128_1_0_0_1_n_n_wf : DotDims.WF S128x5000 S5000x128 S128x128 [1] [0] [0] [1] [] []
  dot_S64x128_S128x128_S64x128_1_0_0_1_n_n_wf : DotDims.WF S64x128 S128x128 S64x128 [1] [0] [0] [1] [] []
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x4.size a ≤ S128x4.size a
  hwx6_4 : ∀ i : grid6.Coords, EltTy.bits .f32 = 32 ∨ (Rect.block (s := S128x4) S128x4.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x4.size a ≤ S1x4.size a
  hwx6_5 : ∀ i : grid6.Coords, EltTy.bits .f32 = 32 ∨ (Rect.block (s := S1x4) S1x4.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x4.size a ≤ S64x4.size a
  hwx6_6 : ∀ i : grid6.Coords, EltTy.bits .f32 = 32 ∨ (Rect.block (s := S64x4) S64x4.size (cc6_transform_6 i) (hinb6_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x5000_S5000x128_S128x128_1_0_0_1_n_n : DotDims S128x5000 S5000x128 S128x128 where
  lhsContracting := [1]
  rhsContracting := [0]
  lhsNonContracting := [0]
  rhsNonContracting := [1]
  lhsBatch := []
  rhsBatch := []
  wf := dot_S128x5000_S5000x128_S128x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S128x4.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v89) S1x4.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v90) S64x4.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S100000x128 : Shape := ⟨2, ![100000, 128]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S64 : Shape := ⟨1, ![64]⟩
abbrev S64x1 : Shape := ⟨2, ![64, 1]⟩
abbrev S64x4 : Shape := ⟨2, ![64, 4]⟩
abbrev S1x4 : Shape := ⟨2, ![1, 4]⟩

abbrev nBuf : Space → Nat
  | .hbm => 212
  | .vmem => 0
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x4, .f32⟩
  | 10 => ⟨S4, .f32⟩
  | 11 => ⟨S2x800000, .i32⟩
  | 12 => ⟨S100000, .i32⟩
  | 13 => ⟨S1x800000, .i32⟩
  | 14 => ⟨S800000, .i32⟩
  | 15 => ⟨S1x800000, .i32⟩
  | 16 => ⟨S800000, .i32⟩
  | 17 => ⟨S100000x128, .f32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S100000x128, .f32⟩
  | 61 => ⟨S800000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S100000x128, .f32⟩
  | 118 => ⟨S800000x1, .i32⟩
  | 119 => ⟨S100000x128, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x64, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .f32⟩
  | 5 => ⟨S800000, .f32⟩
  | 6 => ⟨S_, .f32⟩
  | 7 => ⟨S100000, .f32⟩
  | 8 => ⟨S800000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S800000x1, .f32⟩
  | 43 => ⟨S800000x128, .f32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S64x128, .f32⟩
  | 59 => ⟨S100000x1, .i32⟩
  | 60 => ⟨S64x128, .f32⟩
  | 61 => ⟨S_, .f32⟩
  | 62 => ⟨S100000, .f32⟩
  | 63 => ⟨S_, .f32⟩
  | 64 => ⟨S64, .f32⟩
  | 65 => ⟨S100000x1, .i32⟩
  | 66 => ⟨S64, .f32⟩
  | 67 => ⟨S_, .f32⟩
  | 68 => ⟨S64, .f32⟩
  | 69 => ⟨S64, .f32⟩
  | 70 => ⟨S64x1, .f32⟩
  | 71 => ⟨S64x128, .f32⟩
  | 72 => ⟨S64x128, .f32⟩
  | 73 => ⟨S64x128, .f32⟩
  | 74 => ⟨S1x128, .f32⟩
  | 75 => ⟨S64x128, .f32⟩
  | 76 => ⟨S64x128, .f32⟩
  | 77 => ⟨S_, .f32⟩
  | 78 => ⟨S64x128, .f32⟩
  | 79 => ⟨S64x128, .f32⟩
  | 80 => ⟨S64x4, .f32⟩
  | 81 => ⟨S1x4, .f32⟩
  | 82 => ⟨S64x4, .f32⟩
  | 83 => ⟨S64x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_c_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_25 : Ref sig .tc := ⟨.hbm, 161, rfl⟩
abbrev main_v117 : Ref sig .tc := ⟨.hbm, 162, rfl⟩
abbrev main_v118 : Ref sig .tc := ⟨.hbm, 163, rfl⟩
abbrev main_c_26 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_27 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_29 : Ref sig .tc := ⟨.hbm, 189, rfl⟩
abbrev main_v141 : Ref sig .tc := ⟨.hbm, 190, rfl⟩
abbrev main_cst_30 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_31 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_call2_cst : Ref sig .tc := ⟨.hbm, 205, rfl⟩
abbrev main_call2_v0 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  dot_S100000x64_S64x128_S100000x128_1_0_0_1_n_n_wf : DotDims.WF S100000x64 S64x128 S100000x128 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x4_S64x4_1_0_0_1_n_n_wf : DotDims.WF S64x128 S128x4 S64x4 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.RegionLib.lean ====
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

namespace Cert.RegionLib

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UR sig nD τ) ℕ

theorem zeros2 : (![0, 0] : Fin 2 → ℕ) = fun _ => 0 := by funext a; fin_cases a <;> rfl

/-- One store through the whole-shape rectangle at offset zero covers the buffer, so it reads back as its canon. -/
theorem read_writes_whole [∀ e, Nonempty (Val e)] {κ : Kind} {sp : Space} {S : Shape} {e : EltTy} (v : View sig κ sp S e) (f : v.ty.Contents Val)
    {off : Fin S.rank → ℕ} (h : off = fun _ => 0) (inb : ∀ a, off a + S.size a ≤ S.size a) (w : S.Idx → Val e) :
    v.read Val (v.writes Val f [⟨Rect.unit off S.size inb, w⟩]) = View.canon [⟨Rect.unit off S.size inb, w⟩] :=
  View.read_writes_eq_canon _ _ _ fun y => ⟨_, List.mem_singleton_self _, View.mem_set_unit_zero h inb y⟩

variable {sp₁ sp₂ sp₃ : Space} {S₁ S₂ S₃ : Shape} {e₁ e₂ e₃ : EltTy} {A : Type}

/-- A body that reads two buffers and leaves `y` of what they read in a third, over raw contents, in continuation form. -/
def Triple (c : Thread nD τ) (T : sWPT 𝕄 A) (a : A) (m₁ : Memref sig c.2.kind sp₁ S₁ e₁) (m₂ : Memref sig c.2.kind sp₂ S₂ e₂)
    (m₃ : Memref sig c.2.kind sp₃ S₃ e₃) (y : (S₁.Idx → Val e₁) → (S₂.Idx → Val e₂) → S₃.Idx → Val e₃) : Prop :=
  ∀ f₁ f₂ f₃ (K : A → sProp 𝕄), iprop((m₁.view.loc c ↦[m₁.view.set]{fullShare} f₁) ∗ (m₂.view.loc c ↦[m₂.view.set]{fullShare} f₂)
    ∗ (m₃.view.loc c ↦[m₃.view.set]{fullShare} f₃)
    ∗ (iprop(owns c m₁ fullShare (m₁.view.read Val f₁) ∗ owns c m₂ fullShare (m₂.view.read Val f₂)
      ∗ owns c m₃ fullShare (y (m₁.view.read Val f₁) (m₂.view.read Val f₂))) -∗ K a)) ⊢ T K

/-- The triple framed by `Φ ∗ O`, with the inputs found at `b₁ d = x₁` and `b₂ d = x₂`: the shape of a body obligation at one point. -/
theorem Triple.obligation {c : Thread nD τ} {T : sWPT 𝕄 A} {a : A} {m₁ : Memref sig c.2.kind sp₁ S₁ e₁} {m₂ : Memref sig c.2.kind sp₂ S₂ e₂}
    {m₃ : Memref sig c.2.kind sp₃ S₃ e₃} {y : (S₁.Idx → Val e₁) → (S₂.Idx → Val e₂) → S₃.Idx → Val e₃}
    (h : Triple c T a m₁ m₂ m₃ y) {D₁ D₂ D₃ : Type} {b₁ : D₁ → S₁.Idx → Val e₁} {b₂ : D₂ → S₂.Idx → Val e₂}
    {b₃ : D₃ → S₃.Idx → Val e₃} {x₁ x₁' : S₁.Idx → Val e₁} {x₂ x₂' : S₂.Idx → Val e₂} {y' : S₃.Idx → Val e₃} {Φ Φ' O O' : sProp 𝕄}
    (h₁ : ∀ d, b₁ d = x₁) (h₂ : ∀ d, b₂ d = x₂) (hΦ : Φ' = Φ) (hO : O' = O) (e₁ : x₁' = x₁) (e₂ : x₂' = x₂) (e₃ : y' = y x₁ x₂) :
    iprop(Φ ∗ O ∗ (∃ d, owns c m₁ fullShare (b₁ d)) ∗ (∃ d, owns c m₂ fullShare (b₂ d)) ∗ (∃ d, owns c m₃ fullShare (b₃ d)))
      ⊢ T fun _ => iprop(Φ' ∗ O' ∗ owns c m₁ fullShare x₁' ∗ owns c m₂ fullShare x₂' ∗ owns c m₃ fullShare y') := by
  subst hΦ hO e₁ e₂ e₃
  simp only [h₁, h₂]
  unfold Triple at h
  unfold owns at h ⊢
  iintro ⟨HΦ, Ho, ⟨%d₁, %f₁, %hf₁, H₁⟩, ⟨%d₂, %f₂, %hf₂, H₂⟩, ⟨%d₃, %f₃, -, H₃⟩⟩
  subst hf₁ hf₂
  iapply h f₁ f₂ f₃ _
  iframe
  iintro ⟨H₁, H₂, H₃⟩
  iframe

/-- Raw contents read back: two buffers as they are, the third after one store through its whole shape. -/
theorem refold [∀ e, Nonempty (Val e)] {c : Thread nD τ} {m₁ : Memref sig c.2.kind sp₁ S₁ e₁} {m₂ : Memref sig c.2.kind sp₂ S₂ e₂} {m₃ : Memref sig c.2.kind sp₃ S₃ e₃}
    (f₁ : m₁.view.ty.Contents Val) (f₂ : m₂.view.ty.Contents Val) (f₃ : m₃.view.ty.Contents Val) {off : Fin S₃.rank → ℕ} (hz : off = fun _ => 0)
    {inb : ∀ a, off a + S₃.size a ≤ S₃.size a} {w : S₃.Idx → Val e₃} :
    iprop((m₁.view.loc c ↦[m₁.view.set]{fullShare} f₁) ∗ (m₂.view.loc c ↦[m₂.view.set]{fullShare} f₂)
      ∗ (m₃.view.loc c ↦[m₃.view.set]{fullShare} m₃.view.writes Val f₃ [⟨Rect.unit off S₃.size inb, w⟩]))
    ⊢ (iprop(owns c m₁ fullShare (m₁.view.read Val f₁) ∗ owns c m₂ fullShare (m₂.view.read Val f₂)
      ∗ owns c m₃ fullShare (View.canon [⟨Rect.unit off S₃.size inb, w⟩])) : sProp 𝕄) := by
  rw [← read_writes_whole m₃.view f₃ hz inb w]
  iintro ⟨H₁, H₂, H₃⟩
  isplitl [H₁]; · iapply owns_intro; iexact H₁
  isplitl [H₂]; · iapply owns_intro; iexact H₂
  iapply owns_intro; iexact H₃

end Cert.RegionLib
-- ==== Proof.FrB.R0.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x64 .f32) (x1 : Vec F S64x128 .f32) : Vec F S5000x128 .f32 :=
  View.canon [⟨Rect.unit (s := S5000x128) ![0, 0] S5000x128.size inb_S5000x128_S5000x128_0_0,
    k0_pay1 (View.ld x0 (Rect.unit (s := S5000x64) ![0, 0] S5000x64.size inb_S5000x64_S5000x64_0_0)) (View.ld x1 (Rect.unit (s := S64x128) ![0, 0] S64x128.size inb_S64x128_S64x128_0_0))⟩]

/-- The body's run on whole buffers: its one store fills the output. -/
theorem sound_kernel0 (c : Dev nD) (E i arg1 harg1 arg2 harg2 arg3 harg3) :
    Triple (c : Thread nD τ) (wp frame (wpE (defs₀ (F := F)) Variants.none c none) E (cc0__matmul_kernel i arg1 harg1 arg2 harg2 arg3 harg3)) ⟨⟩ arg1 arg2 arg3 out0_2 := by
  intro f0 f1 f2 K
  simp only [cc0__matmul_kernel_eq_skeleton]; unfold cc0__matmul_kernel_skel
  iintro ⟨H0, H1, H2, Hk⟩
  sl_exec
  sl_step
  iapply Hk
  iapply refold _ _ _ zeros2
  isplitl [H0]; · iexact H0
  isplitl [H1]; · iexact H1
  iexact H2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  exact Triple.obligation (T := wp _ _ _ (bodyAt0 t)) (x₁ := iblk0 V c 0 t) (x₂ := iblk0 V c 1 t) (sound_kernel0 c _ _ _ _ _ _ _ _)
    (fun d => ((dat0 V c).before_in_eq_fetched 0 rfl (fun _ => rfl) (fun _ _ _ => rfl) (fun _ => rfl) t d).trans rfl)
    (fun d => ((dat0 V c).before_in_eq_fetched 1 rfl (fun _ => rfl) (fun _ _ _ => rfl) (fun _ => rfl) t d).trans rfl) rfl rfl (by dsimp only [dat0]) (by dsimp only [dat0]) (after0_2 V c t)

end Cert.Kernel.FrB

end
-- ==== Proof.FrB.R1.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S5000x128 .f32) (x1 : Vec F S1x128 .f32) : Vec F S5000x128 .f32 :=
  View.canon [⟨Rect.unit (s := S5000x128) ![0, 0] S5000x128.size inb_S5000x128_S5000x128_0_0,
    k1_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel1 (c : Dev nD) (E i arg1 harg1 arg2 harg2 arg3 harg3) :
    Triple (c : Thread nD τ) (wp frame (wpE (defs₀ (F := F)) Variants.none c none) E (cc1__bias_act_kernel i arg1 harg1 arg2 harg2 arg3 harg3)) ⟨⟩ arg1 arg2 arg3 out1_2 := by
  intro f0 f1 f2 K
  simp only [cc1__bias_act_kernel_eq_skeleton]; unfold cc1__bias_act_kernel_skel
  iintro ⟨H0, H1, H2, Hk⟩
  sl_exec
  sl_step
  iapply Hk
  iapply refold _ _ _ zeros2
  isplitl [H0]; · iexact H0
  isplitl [H1]; · iexact H1
  iexact H2

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  exact Triple.obligation (T := wp _ _ _ (bodyAt1 t)) (x₁ := iblk1 V c 0 t) (x₂ := iblk1 V c 1 t) (sound_kernel1 c _ _ _ _ _ _ _ _)
    (fun d => ((dat1 V c).before_in_eq_fetched 0 rfl (fun _ => rfl) (fun _ _ _ => rfl) (fun _ => rfl) t d).trans rfl)
    (fun d => ((dat1 V c).before_in_eq_fetched 1 rfl (fun _ => rfl) (fun _ _ _ => rfl) (fun _ => rfl) t d).trans rfl) rfl rfl (by dsimp only [dat1]) (by dsimp only [dat1]) (after1_2 V c t)

end Cert.Kernel.FrB

end
-- ==== Proof.FrB.R2.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x128 .f32) (x1 : Vec F S128x128 .f32) : Vec F S5000x128 .f32 :=
  View.canon [⟨Rect.unit (s := S5000x128) ![0, 0] S5000x128.size inb_S5000x128_S5000x128_0_0,
    k2_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The body's run on whole buffers: its one store fills the output. -/
theorem sound_kernel2 (c : Dev nD) (E i arg1 harg1 arg2 harg2 arg3 harg3) :
    Triple (c : Thread nD τ) (wp frame (wpE (defs₀ (F := F)) Variants.none c none) E (cc2__matmul_kernel i arg1 harg1 arg2 harg2 arg3 harg3)) ⟨⟩ arg1 arg2 arg3 out2_2 := by
  intro f0 f1 f2 K
  simp only [cc2__matmul_kernel_eq_skeleton]; unfold cc2__matmul_kernel_skel
  iintro ⟨H0, H1, H2, Hk⟩
  sl_exec
  sl_step
  iapply Hk
  iapply refold _ _ _ zeros2
  isplitl [H0]; · iexact H0
  isplitl [H1]; · iexact H1
  iexact H2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  exact Triple.obligation (T := wp _ _ _ (bodyAt2 t)) (x₁ := iblk2 V c 0 t) (x₂ := iblk2 V c 1 t) (sound_kernel2 c _ _ _ _ _ _ _ _)
    (fun d => ((dat2 V c).before_in_eq_fetched 0 rfl (fun _ => rfl) (fun _ _ _ => rfl) (fun _ => rfl) t d).trans rfl)
    (fun d => ((dat2 V c).before_in_eq_fetched 1 rfl (fun _ => rfl) (fun _ _ _ => rfl) (fun _ => rfl) t d).trans rfl) rfl rfl (by dsimp only [dat2]) (by dsimp only [dat2]) (after2_2 V c t)

end Cert.Kernel.FrB

end
-- ==== Proof.FrB.R3.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨Rect.unit (s := S5000x128) ![0, 0] S5000x128.size inb_S5000x128_S5000x128_0_0,
    k3_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel3 (c : Dev nD) (E i arg1 harg1 arg2 harg2 arg3 harg3) :
    Triple (c : Thread nD τ) (wp frame (wpE (defs₀ (F := F)) Variants.none c none) E (cc3__bias_act_kernel i arg1 harg1 arg2 harg2 arg3 harg3)) ⟨⟩ arg1 arg2 arg3 out3_2 := by
  intro f0 f1 f2 K
  simp only [cc3__bias_act_kernel_eq_skeleton]; unfold cc3__bias_act_kernel_skel
  iintro ⟨H0, H1, H2, Hk⟩
  sl_exec
  sl_step
  iapply Hk
  iapply refold _ _ _ zeros2
  isplitl [H0]; · iexact H0
  isplitl [H1]; · iexact H1
  iexact H2

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  exact Triple.obligation (T := wp _ _ _ (bodyAt3 t)) (x₁ := iblk3 V c 0 t) (x₂ := iblk3 V c 1 t) (sound_kernel3 c _ _ _ _ _ _ _ _)
    (fun d => ((dat3 V c).before_in_eq_fetched 0 rfl (fun _ => rfl) (fun _ _ _ => rfl) (fun _ => rfl) t d).trans rfl)
    (fun d => ((dat3 V c).before_in_eq_fetched 1 rfl (fun _ => rfl) (fun _ _ _ => rfl) (fun _ => rfl) t d).trans rfl) rfl rfl (by dsimp only [dat3]) (by dsimp only [dat3]) (after3_2 V c t)

end Cert.Kernel.FrB

end
-- ==== Proof.FrB.R4.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .f32) : Vec F S5000x128 .f32 :=
  View.canon [⟨Rect.unit (s := S5000x128) ![0, 0] S5000x128.size inb_S5000x128_S5000x128_0_0,
    k4_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The body's run on whole buffers: its one store fills the output. -/
theorem sound_kernel4 (c : Dev nD) (E i arg1 harg1 arg2 harg2 arg3 harg3) :
    Triple (c : Thread nD τ) (wp frame (wpE (defs₀ (F := F)) Variants.none c none) E (cc4__matmul_kernel i arg1 harg1 arg2 harg2 arg3 harg3)) ⟨⟩ arg1 arg2 arg3 out4_2 := by
  intro f0 f1 f2 K
  simp only [cc4__matmul_kernel_eq_skeleton]; unfold cc4__matmul_kernel_skel
  iintro ⟨H0, H1, H2, Hk⟩
  sl_exec
  sl_step
  iapply Hk
  iapply refold _ _ _ zeros2
  isplitl [H0]; · iexact H0
  isplitl [H1]; · iexact H1
  iexact H2

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_2 (c : Dev nD) (t : Fin cfg4.N) : (dat4 V c).after 2 t = out4_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  exact Triple.obligation (T := wp _ _ _ (bodyAt4 t)) (x₁ := iblk4 V c 0 t) (x₂ := iblk4 V c 1 t) (sound_kernel4 c _ _ _ _ _ _ _ _)
    (fun d => ((dat4 V c).before_in_eq_fetched 0 rfl (fun _ => rfl) (fun _ _ _ => rfl) (fun _ => rfl) t d).trans rfl)
    (fun d => ((dat4 V c).before_in_eq_fetched 1 rfl (fun _ => rfl) (fun _ _ _ => rfl) (fun _ => rfl) t d).trans rfl) rfl rfl (by dsimp only [dat4]) (by dsimp only [dat4]) (after4_2 V c t)

end Cert.Kernel.FrB

end
-- ==== Proof.FrB.R5.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import proofs.«423718_j22230750724496_1_alg».proof.Proof.RegionLib

noncomputable section

namespace Cert.Kernel.FrB

open Cert.Kernel Cert.Kernel.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 :=
  View.canon [⟨Rect.unit (s := S5000x128) ![0, 0] S5000x128.size inb_S5000x128_S5000x128_0_0,
    k5_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel5 (c : Dev nD) (E i arg1 harg1 arg2 harg2 arg3 harg3) :
    Triple (c : Thread nD τ) (wp frame (wpE (defs₀ (F := F)) Variants.none c none) E (cc5__bias_act_kernel i arg1 harg1 arg2 harg2 arg3 harg3)) ⟨⟩ arg1 arg2 arg3 out5_2 := by
  intro f0 f1 f2 K
  simp only [cc5__bias_act_kernel_eq_skeleton]; unfold cc5__bias_act_kernel_skel
  iintro ⟨H0, H1, H2, Hk⟩
  sl_exec
  sl_step
  iapply Hk
  iapply refold _ _ _ zeros2
  isplitl [H0]; · iexact H0
  isplitl [H1]; · iexact H1
  iexact H2

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]

theorem after5_2 (c : Dev nD) (t : Fin cfg5.N) : (dat5 V c).after 2 t = out5_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  exact Triple.obligation (T := wp _ _ _ (bodyAt5 t)) (x₁ := iblk5 V c 0 t) (x₂ := iblk5 V c 1 t) (sound_kernel5 c _ _ _ _ _ _ _ _)
    (fun d => ((dat5 V c).before_in_eq_fetched 0 rfl (fun _ => rfl) (fun _ _ _ => rfl) (fun _ => rfl) t d).trans rfl)
    (fun d => ((dat5 V c).before_in_eq_fetched 1 rfl (fun _ => rfl) (fun _ _ _ => rfl) (fun _ => rfl) t d).trans rfl) rfl rfl (by dsimp only [dat5]) (by dsimp only [dat5]) (after5_2 V c t)

end Cert.Kernel.FrB

end
-- ==== Proof.FrB.R6Runs.lean ====
import proofs.«423718_j22230750724496_1_alg».proof.Proof.Gen.Kernel.Launch
import proofs.«423718_j22230750724496_1_alg».proof.Proof.Gen.Kernel.Skeleton
import proofs.«423718_j22230750724496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The block of array `w` that point `t` works on, at the region-entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

end Regions

abbrev cond6_0 (i : grid6.Coords) : Prop := (Scalar.cmpi .ne (Scalar.extui (Scalar.cmpi .eq (BitVec.ofNat 32 (i 0).val) 0#32)) 0#32) = 1#1
/-- The first test holds at point 0 only, the second at point 19 only. -/
theorem hcond6_0 : ∀ t : Fin cfg6.N, cond6_0 (grid6.coords t) ↔ t.val = 0 :=
  (by decide +kernel : ∀ t : Fin grid6.N, cond6_0 (grid6.coords t) ↔ t.val = 0)
abbrev cond6_1 (i : grid6.Coords) : Prop := k6_cond2 i = 1#1
theorem hcond6_1 : ∀ t : Fin cfg6.N, cond6_1 (grid6.coords t) ↔ t.val = 19 :=
  (by decide +kernel : ∀ t : Fin grid6.N, cond6_1 (grid6.coords t) ↔ t.val = 19)

theorem liveAt6 : ∀ w : Fin cfg6.W, w ≠ 6 → ∀ t : Fin cfg6.N, cfg6.idle w (grid6.coords t) = false := by decide +kernel
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

abbrev VO6_6 : View sig .tc .vmem S64x4 .f32 := (Memref.whole cc6_stg6_0 : Memref sig .tc .vmem S64x4 .f32).view
abbrev scM6_0 : Memref sig .tc .vmem S128x128 .f32 := Memref.whole cc6_scratch0
abbrev scM6_1 : Memref sig .tc .vmem S128x128 .f32 := Memref.whole cc6_scratch1
abbrev VS6_0 : View sig .tc .vmem S128x128 .f32 := scM6_0.view
abbrev VS6_1 : View sig .tc .vmem S128x128 .f32 := scM6_1.view

/-- The nine memrefs the body is called on (six inputs, the output, the two accumulators), each whole. -/
structure Args6 where
  a1 : Memref sig .tc .vmem S5000x128 .f32
  h1 : a1.IsWhole
  a2 : Memref sig .tc .vmem S5000x1 .i32
  h2 : a2.IsWhole
  a3 : Memref sig .tc .vmem S128x128 .f32
  h3 : a3.IsWhole
  a4 : Memref sig .tc .vmem S1x128 .f32
  h4 : a4.IsWhole
  a5 : Memref sig .tc .vmem S128x4 .f32
  h5 : a5.IsWhole
  a6 : Memref sig .tc .vmem S1x4 .f32
  h6 : a6.IsWhole
  a7 : Memref sig .tc .vmem S64x4 .f32
  h7 : a7.IsWhole
  a8 : Memref sig .tc .vmem S128x128 .f32
  h8 : a8.IsWhole
  a9 : Memref sig .tc .vmem S128x128 .f32
  h9 : a9.IsWhole

/-- The six inputs' blocks. -/
structure Ins6 (F : FTy → Type) where
  x0 : Vec F S5000x128 .f32
  x1 : Vec F S5000x1 .i32
  x2 : Vec F S128x128 .f32
  x3 : Vec F S1x128 .f32
  x4 : Vec F S128x4 .f32
  x5 : Vec F S1x4 .f32

/-- The body's memrefs at point `t`. -/
abbrev pt6 (t : Fin cfg6.N) : Args6 :=
  ⟨win6_0.stage (cfg6.slots t 0), hstage6_0 ((cfg6.slots t 0).cast nbuf6_0), win6_1.stage (cfg6.slots t 1), hstage6_1 ((cfg6.slots t 1).cast nbuf6_1), win6_2.stage (cfg6.slots t 2), hstage6_2 ((cfg6.slots t 2).cast nbuf6_2), win6_3.stage (cfg6.slots t 3), hstage6_3 ((cfg6.slots t 3).cast nbuf6_3), win6_4.stage (cfg6.slots t 4), hstage6_4 ((cfg6.slots t 4).cast nbuf6_4), win6_5.stage (cfg6.slots t 5), hstage6_5 ((cfg6.slots t 5).cast nbuf6_5), win6_6.stage (cfg6.slots t 6), hstage6_6 ((cfg6.slots t 6).cast nbuf6_6), scM6_0, Memref.isWhole_whole _, scM6_1, Memref.isWhole_whole _⟩

abbrev body6 (i : grid6.Coords) (p : Args6) :=
  cc6__pool_mlp_kernel (F := F) i p.a1 p.h1 p.a2 p.h2 p.a3 p.h3 p.a4 p.h4 p.a5 p.h5 p.a6 p.h6 p.a7 p.h7 p.a8 p.h8 p.a9 p.h9

/-- The six inputs owned at their blocks, beside `R`. -/
def insAt (c : Dev nD) (p : Args6) (x : Ins6 F) (R : sProp 𝕄) : sProp 𝕄 :=
  iprop(owns (c : Thread nD τ) p.a1 fullShare x.x0 ∗ owns (c : Thread nD τ) p.a2 fullShare x.x1 ∗ owns (c : Thread nD τ) p.a3 fullShare x.x2 ∗ owns (c : Thread nD τ) p.a4 fullShare x.x3 ∗ owns (c : Thread nD τ) p.a5 fullShare x.x4 ∗ owns (c : Thread nD τ) p.a6 fullShare x.x5 ∗ R)

/-- A buffer holding the stores `L`, latest first, over some contents. -/
def wrote (c : Dev nD) {S : Shape} {e : EltTy} (m : Memref sig .tc .vmem S e) (L : List (View.Piece (Elt F) S e)) : sProp 𝕄 :=
  iprop(∃ f, m.view.loc (c : Thread nD τ) ↦[m.view.set]{fullShare} m.view.writes (Elt F) f L)

/-- A whole memref owned at `X` is its buffer at the contents read as `X`. -/
theorem owns_eq_unread (c : Dev nD) {S : Shape} {e : EltTy} {m : Memref sig .tc .vmem S e} (h : m.IsWhole) (q : PosShare TreeShare) (X : Vec F S e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread _
    iexact H
  exact BI.equiv_iff.mp ⟨h₁, h₂⟩

abbrev restBut6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ restBut6 (F := F) c) ∗ (∃ r, prngReg c r)) := by
  unfold Pipeline.ΦA; rw [scopedRest6_split]; simp only [scM6_0, scM6_1, owns_whole]; try rfl

end Cert.Kernel.FrB

end
-- ==== Proof.FrB.R6RunA.lean ====
import proofs.«423718_j22230750724496_1_alg».proof.Proof.FrB.R6Runs

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A (the first point), from accumulators at any contents: the run finds the stores `L6`, `LS0`, `LS1` and proves the body's triple in continuation form. -/
def kernelRun6_A (c : Dev nD) (i : grid6.Coords) (p : Args6) (x : Ins6 F) (hc0 : cond6_0 i) (hc1 : ¬cond6_1 i) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ (∃ d, owns (c : Thread nD τ) p.a8 fullShare d) ∗ (∃ d, owns (c : Thread nD τ) p.a9 fullShare d)
            ∗ (insAt c p x iprop(owns (c : Thread nD τ) p.a7 fullShare xi6 ∗ wrote c p.a8 LS0 ∗ wrote c p.a9 LS1) -∗ K ⟨⟩))
          ⊢ wp frame (wpE (defs₀ (F := F)) Variants.none c none) E (body6 (F := F) i p) K } := by
  refine ⟨[], ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7]
    unfold owns
    simp only [cc6__pool_mlp_kernel_eq_skeleton]; unfold cc6__pool_mlp_kernel_skel
    iintro ⟨H0, H1, H2, H3, H4, H5, H6, ⟨%ds0, %fs0, -, HS0⟩, ⟨%ds1, %fs1, -, HS1⟩, Hk⟩
    sl_exec (disch := first | exact hc0 | exact hc1)
    sl_step
    iapply Hk
    iframe H0 H1 H2 H3 H4 H5 H6
    isplitl [HS0]; · iexists _; iexact HS0
    iexists _; iexact HS1

end Cert.Kernel.FrB

end
-- ==== Proof.FrB.R6RunB.lean ====
import proofs.«423718_j22230750724496_1_alg».proof.Proof.FrB.R6Runs

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B (a middle point): as case A, from accumulators at given contents. -/
def kernelRun6_B (c : Dev nD) (i : grid6.Coords) (p : Args6) (x : Ins6 F) (hc0 : ¬cond6_0 i) (hc1 : ¬cond6_1 i) (xs0 xs1 : Vec F S128x128 .f32) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ owns (c : Thread nD τ) p.a8 fullShare xs0 ∗ owns (c : Thread nD τ) p.a9 fullShare xs1
            ∗ (insAt c p x iprop(owns (c : Thread nD τ) p.a7 fullShare xi6 ∗ wrote c p.a8 LS0 ∗ wrote c p.a9 LS1) -∗ K ⟨⟩))
          ⊢ wp frame (wpE (defs₀ (F := F)) Variants.none c none) E (body6 (F := F) i p) K } := by
  refine ⟨[], ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7, owns_eq_unread c p.h8, owns_eq_unread c p.h9]
    simp only [cc6__pool_mlp_kernel_eq_skeleton]; unfold cc6__pool_mlp_kernel_skel
    iintro ⟨H0, H1, H2, H3, H4, H5, H6, HS0, HS1, Hk⟩
    sl_exec (disch := first | exact hc0 | exact hc1)
    sl_step
    iapply Hk
    iframe H0 H1 H2 H3 H4 H5 H6
    isplitl [HS0]; · iexists _; iexact HS0
    iexists _; iexact HS1

end Cert.Kernel.FrB

end
-- ==== Proof.FrB.R6RunC.lean ====
import proofs.«423718_j22230750724496_1_alg».proof.Proof.FrB.R6Runs

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C (the last point): as case B, and the output's buffer is stored into. -/
def kernelRun6_C (c : Dev nD) (i : grid6.Coords) (p : Args6) (x : Ins6 F) (hc0 : ¬cond6_0 i) (hc1 : cond6_1 i) (xs0 xs1 : Vec F S128x128 .f32) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ owns (c : Thread nD τ) p.a8 fullShare xs0 ∗ owns (c : Thread nD τ) p.a9 fullShare xs1
            ∗ (insAt c p x iprop(wrote c p.a7 L6 ∗ wrote c p.a8 LS0 ∗ wrote c p.a9 LS1) -∗ K ⟨⟩))
          ⊢ wp frame (wpE (defs₀ (F := F)) Variants.none c none) E (body6 (F := F) i p) K } := by
  refine ⟨?_, ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7, owns_eq_unread c p.h8, owns_eq_unread c p.h9]
    simp only [cc6__pool_mlp_kernel_eq_skeleton]; unfold cc6__pool_mlp_kernel_skel
    iintro ⟨H0, H1, H2, H3, H4, H5, H6, HS0, HS1, Hk⟩
    sl_exec (disch := first | exact hc0 | exact hc1)
    sl_step
    iapply Hk
    iframe H0 H1 H2 H3 H4 H5
    isplitl [H6]; · iexists _; iexact H6
    isplitl [HS0]; · iexists _; iexact HS0
    iexists _; iexact HS1

end Cert.Kernel.FrB

end
-- ==== Proof.FrB.R6.lean ====
import proofs.«423718_j22230750724496_1_alg».proof.Proof.FrB.R6RunA
import proofs.«423718_j22230750724496_1_alg».proof.Proof.FrB.R6RunB
import proofs.«423718_j22230750724496_1_alg».proof.Proof.FrB.R6RunC

set_option maxRecDepth 16384

noncomputable section

namespace Cert.Kernel.FrB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What lists of stores leave in the output's buffer and the two accumulators: the stores read back. -/
def left6 {P : List (View.Piece (Elt F) S64x4 .f32) → List (View.Piece (Elt F) S128x128 .f32) → List (View.Piece (Elt F) S128x128 .f32) → Prop}
    (r : Σ' L6 LS0, { LS1 // P L6 LS0 LS1 }) : Vec F S64x4 .f32 × Vec F S128x128 .f32 × Vec F S128x128 .f32 :=
  (VO6_6.read (Elt F) (VO6_6.writes (Elt F) VO6_6.junk r.1), VS6_0.read (Elt F) (VS6_0.writes (Elt F) VS6_0.junk r.2.1), VS6_1.read (Elt F) (VS6_1.writes (Elt F) VS6_1.junk r.2.2.1))

section Regions
variable (V : (c : Dev nD) → (b : Ref sig .tc) → Buf (Elt F) ((c : Thread nD τ).loc b)) (c : Dev nD) (t : Fin cfg6.N)

abbrev ins6 : Ins6 F :=
  ⟨iblk6 V c 0 t, iblk6 V c 1 t, iblk6 V c 2 t, iblk6 V c 3 t, iblk6 V c 4 t, iblk6 V c 5 t⟩

/-- The accumulation: the triple (output, sums, counts) left at position `n`, by recursion on `n` through the case of the point. -/
def outsAt6 : (n : ℕ) → n < cfg6.N → Vec F S64x4 .f32 × Vec F S128x128 .f32 × Vec F S128x128 .f32
  | 0, hn => left6 (kernelRun6_A c (grid6.coords ⟨0, hn⟩) (pt6 ⟨0, hn⟩) (ins6 V c ⟨0, hn⟩) ((hcond6_0 ⟨0, hn⟩).mpr rfl) fun h => absurd ((hcond6_1 ⟨0, hn⟩).mp h) (by decide : (0 : ℕ) ≠ 19))
  | n + 1, hn =>
    if h1 : n + 1 = 19 then
      left6 (kernelRun6_C c (grid6.coords ⟨n + 1, hn⟩) (pt6 ⟨n + 1, hn⟩) (ins6 V c ⟨n + 1, hn⟩) (fun h => absurd ((hcond6_0 ⟨n + 1, hn⟩).mp h) (Nat.succ_ne_zero n)) ((hcond6_1 ⟨n + 1, hn⟩).mpr h1) (outsAt6 n (Nat.lt_of_succ_lt hn)).2.1 (outsAt6 n (Nat.lt_of_succ_lt hn)).2.2)
    else
      left6 (kernelRun6_B c (grid6.coords ⟨n + 1, hn⟩) (pt6 ⟨n + 1, hn⟩) (ins6 V c ⟨n + 1, hn⟩) (fun h => absurd ((hcond6_0 ⟨n + 1, hn⟩).mp h) (Nat.succ_ne_zero n)) (fun h => h1 ((hcond6_1 ⟨n + 1, hn⟩).mp h)) (outsAt6 n (Nat.lt_of_succ_lt hn)).2.1 (outsAt6 n (Nat.lt_of_succ_lt hn)).2.2)

theorem outsAt6_A (h0 : t.val = 0) (h1 : ¬t.val = 19) :
    outsAt6 V c t.val t.isLt = left6 (kernelRun6_A c (grid6.coords t) (pt6 t) (ins6 V c t) ((hcond6_0 t).mpr h0) (fun h => h1 ((hcond6_1 t).mp h))) := by
  obtain ⟨n, hn⟩ := t
  cases n with
  | zero => exact rfl
  | succ n => exact absurd h0 (Nat.succ_ne_zero n)

theorem outsAt6_B (h0 : ¬t.val = 0) (h1 : ¬t.val = 19) :
    outsAt6 V c t.val t.isLt = left6 (kernelRun6_B c (grid6.coords t) (pt6 t) (ins6 V c t) (fun h => h0 ((hcond6_0 t).mp h)) (fun h => h1 ((hcond6_1 t).mp h)) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt6_C (h0 : ¬t.val = 0) (h1 : t.val = 19) :
    outsAt6 V c t.val t.isLt = left6 (kernelRun6_C c (grid6.coords t) (pt6 t) (ins6 V c t) (fun h => h0 ((hcond6_0 t).mp h)) ((hcond6_1 t).mpr h1) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_pos h1).trans rfl

def sum6 (n : ℕ) (h : n < cfg6.N) : Vec F S128x128 .f32 := (outsAt6 V c n h).2.1
def cnt6 (n : ℕ) (h : n < cfg6.N) : Vec F S128x128 .f32 := (outsAt6 V c n h).2.2

/-- The invariant at position `n`: from position 1 on, the accumulators are owned at `outsAt6 (n - 1)`'s last two components. -/
def PhiS6 : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r))

theorem PhiS6_zero (n : ℕ) (h : n ≤ cfg6.N) (hz : n = 0) : PhiS6 V c n h = Pipeline.ΦA spec6 c := by
  subst hz; rfl

theorem PhiS6_succ (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r)) := rfl

theorem PhiS6_pos (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ restBut6 (F := F) c) ∗ (∃ r, prngReg c r)) := by
  cases n with
  | zero => exact absurd rfl hz
  | succ n => rfl

/-- What the body leaves in each buffer (`after`: the inputs' blocks, and `outsAt6`'s first component in the output's) and the invariant between points (`Φ`). -/
def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
  Φ t := PhiS6 V c t.val (Nat.le_of_lt_succ t.isLt)
  q _ := fullShare
  owed _ := 0

theorem A_eq6 (w : Fin cfg6.W) : (dat6 V c).A w = V c (Pipeline.arrRef spec6 w) := by
  dsimp only [dat6]

theorem q_eq6 (w : Fin cfg6.W) : (dat6 V c).q w = fullShare := rfl
theorem owed_eq6 (t : Fin (cfg6.N + 1)) : (dat6 V c).owed t = 0 := rfl
theorem recorded_eq6 (t : Fin (cfg6.N + 1)) : (dat6 V c).recorded t = Set.univ := rfl

theorem PhiS6_castSucc :
    (dat6 V c).Φ t.castSucc = PhiS6 V c t.val (Nat.le_of_lt t.isLt) := by
  dsimp only [dat6]; simp only [Fin.coe_castSucc]

theorem after6_6 : (dat6 V c).after 6 t = (outsAt6 V c t.val t.isLt).1 := by dsimp only [dat6]

theorem before6_0 (d) : (dat6 V c).before 0 t d = iblk6 V c 0 t :=
  ((dat6 V c).before_in_eq_fetched 0 rfl (fun _ => rfl) (fun _ _ _ => rfl) (fun _ => rfl) t d).trans rfl
theorem before6_1 (d) : (dat6 V c).before 1 t d = iblk6 V c 1 t :=
  ((dat6 V c).before_in_eq_fetched 1 rfl (fun _ => rfl) (fun _ _ _ => rfl) (fun _ => rfl) t d).trans rfl
theorem before6_2 (d) : (dat6 V c).before 2 t d = iblk6 V c 2 t :=
  ((dat6 V c).before_in_eq_fetched 2 rfl (fun _ => rfl) (fun _ _ _ => rfl) (fun _ => rfl) t d).trans rfl
theorem before6_3 (d) : (dat6 V c).before 3 t d = iblk6 V c 3 t :=
  ((dat6 V c).before_in_eq_fetched 3 rfl (fun _ => rfl) (fun _ _ _ => rfl) (fun _ => rfl) t d).trans rfl
theorem before6_4 (d) : (dat6 V c).before 4 t d = iblk6 V c 4 t :=
  ((dat6 V c).before_in_eq_fetched 4 rfl (fun _ => rfl) (fun _ _ _ => rfl) (fun _ => rfl) t d).trans rfl
theorem before6_5 (d) : (dat6 V c).before 5 t d = iblk6 V c 5 t :=
  ((dat6 V c).before_in_eq_fetched 5 rfl (fun _ => rfl) (fun _ _ _ => rfl) (fun _ => rfl) t d).trans rfl

/-- The two sides of the body obligation at point `t`. -/
def bodyPre6 : sProp 𝕄 :=
  iprop((dat6 V c).Φ t.castSucc ∗ (dat6 V c).owesAt () t.castSucc
    ∗ (∃ d, owns (c : Thread nD τ) (pt6 t).a1 fullShare ((dat6 V c).before 0 t d))
    ∗ (∃ d, owns (c : Thread nD τ) (pt6 t).a2 fullShare ((dat6 V c).before 1 t d))
    ∗ (∃ d, owns (c : Thread nD τ) (pt6 t).a3 fullShare ((dat6 V c).before 2 t d))
    ∗ (∃ d, owns (c : Thread nD τ) (pt6 t).a4 fullShare ((dat6 V c).before 3 t d))
    ∗ (∃ d, owns (c : Thread nD τ) (pt6 t).a5 fullShare ((dat6 V c).before 4 t d))
    ∗ (∃ d, owns (c : Thread nD τ) (pt6 t).a6 fullShare ((dat6 V c).before 5 t d))
    ∗ (∃ d, owns (c : Thread nD τ) (pt6 t).a7 fullShare ((dat6 V c).before 6 t d)))

def bodyPost6 : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

/-- The body at a point, from the run of the point's case: the invariant holds the accumulators as the run takes them (`P0`, `P1`), the run's stores tile them and read back as the accumulation's components, and the run leaves the output's buffer (`Q`) as the obligation wants it. -/
theorem body_of_run6 (P0 P1 : sProp 𝕄) (Q : Vec F S64x4 .f32 → sProp 𝕄) (LS0 LS1 : List (View.Piece (Elt F) S128x128 .f32))
    (hrun : ∀ (xi6 : Vec F S64x4 .f32) (E : Set ℕ) (K : PUnit → sProp 𝕄),
      insAt c (pt6 t) (ins6 V c t) iprop(owns (c : Thread nD τ) (pt6 t).a7 fullShare xi6 ∗ P0 ∗ P1
          ∗ (insAt c (pt6 t) (ins6 V c t) iprop(Q xi6 ∗ wrote c (pt6 t).a8 LS0 ∗ wrote c (pt6 t).a9 LS1) -∗ K ⟨⟩))
        ⊢ wp frame (wpE (defs₀ (F := F)) Variants.none c none) E (body6 (F := F) (grid6.coords t) (pt6 t)) K)
    (h0 : View.Piece.tiledL LS0 S128x128.size = true) (h1 : View.Piece.tiledL LS1 S128x128.size = true)
    (hΦ : (dat6 V c).Φ t.castSucc = iprop(iprop(iprop(P0 ∗ P1) ∗ restBut6 (F := F) c) ∗ (∃ r, prngReg c r)))
    (ho0 : (outsAt6 V c t.val t.isLt).2.1 = VS6_0.read (Elt F) (VS6_0.writes (Elt F) VS6_0.junk LS0))
    (ho1 : (outsAt6 V c t.val t.isLt).2.2 = VS6_1.read (Elt F) (VS6_1.writes (Elt F) VS6_1.junk LS1))
    (hQ : ∀ d, Q ((dat6 V c).before 6 t d) ⊢ (dat6 V c).leavesExact 6 t) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ, hΦ, ho0, ho1]
  rw [show (dat6 V c).leavesExact 0 t = owns (c : Thread nD τ) (pt6 t).a1 fullShare (iblk6 V c 0 t) from by
    unfold Dat.leavesExact; rw [liveAt6 0 (by decide) t] <;> rfl]
  rw [show (dat6 V c).leavesExact 1 t = owns (c : Thread nD τ) (pt6 t).a2 fullShare (iblk6 V c 1 t) from by
    unfold Dat.leavesExact; rw [liveAt6 1 (by decide) t] <;> rfl]
  rw [show (dat6 V c).leavesExact 2 t = owns (c : Thread nD τ) (pt6 t).a3 fullShare (iblk6 V c 2 t) from by
    unfold Dat.leavesExact; rw [liveAt6 2 (by decide) t] <;> rfl]
  rw [show (dat6 V c).leavesExact 3 t = owns (c : Thread nD τ) (pt6 t).a4 fullShare (iblk6 V c 3 t) from by
    unfold Dat.leavesExact; rw [liveAt6 3 (by decide) t] <;> rfl]
  rw [show (dat6 V c).leavesExact 4 t = owns (c : Thread nD τ) (pt6 t).a5 fullShare (iblk6 V c 4 t) from by
    unfold Dat.leavesExact; rw [liveAt6 4 (by decide) t] <;> rfl]
  rw [show (dat6 V c).leavesExact 5 t = owns (c : Thread nD τ) (pt6 t).a6 fullShare (iblk6 V c 5 t) from by
    unfold Dat.leavesExact; rw [liveAt6 5 (by decide) t] <;> rfl]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (hrun _ Set.univ _)
  unfold insAt wrote
  iframe H0 H1 H2 H3 H4 H5 H6 HS0 HS1
  iintro ⟨H0, H1, H2, H3, H4, H5, HQ, ⟨%es0, HS0⟩, ⟨%es1, HS1⟩⟩
  iframe HR Hg Ho H0 H1 H2 H3 H4 H5
  isplitl [HS0 HS1]
  · isplitl [HS0]
    · ihave H' := (Ring.owns_of_writes_tiledL VS6_0 S128x128.size) $$ HS0; iapply H'; ipureintro; exact h0
    ihave H' := (Ring.owns_of_writes_tiledL VS6_1 S128x128.size) $$ HS1; iapply H'; ipureintro; exact h1
  iapply (hQ d6); iexact HQ

set_option maxHeartbeats 4800000 in
/-- The body at every point, by cases on the point's position. -/
theorem sound_body6 :
    bodyPre6 V c t ⊢ wp frame (wpE (defs₀ (F := F)) Variants.none c none) Set.univ (bodyAt6 t) (fun _ => bodyPost6 V c t) := by
  have hN : t.val < 20 := lt_of_lt_of_eq t.isLt (show cfg6.N = 20 from N_6)
  by_cases h0 : t.val = 0
  · have h1 : ¬t.val = 19 := by omega
    exact body_of_run6 V c t _ _ _ _ _ (kernelRun6_A c (grid6.coords t) (pt6 t) (ins6 V c t) ((hcond6_0 t).mpr h0) (fun h => h1 ((hcond6_1 t).mp h))).2.2.2 (by sl_kernel_rfl) (by sl_kernel_rfl)
      ((PhiS6_castSucc V c t).trans ((PhiS6_zero V c _ _ h0).trans (PhiA6_eq c)))
      (congrArg (·.2.1) (outsAt6_A V c t h0 h1)) (congrArg (·.2.2) (outsAt6_A V c t h0 h1))
      fun d => by rw [Dat.leavesExact_idle (dat6 V c) 6 t (idleAt6_6 t (fun h => h1 ((hcond6_1 t).mp h))) (noFlush6_6 t (fun h => h1 ((hcond6_1 t).mp h)))]; iintro H; iexists d; iexact H
  · by_cases h1 : t.val = 19
    · exact body_of_run6 V c t _ _ _ _ _ (kernelRun6_C c (grid6.coords t) (pt6 t) (ins6 V c t) (fun h => h0 ((hcond6_0 t).mp h)) ((hcond6_1 t).mpr h1) _ _).2.2.2 (by sl_kernel_rfl) (by sl_kernel_rfl)
        ((PhiS6_castSucc V c t).trans (PhiS6_pos V c _ _ h0))
        (congrArg (·.2.1) (outsAt6_C V c t h0 h1)) (congrArg (·.2.2) (outsAt6_C V c t h0 h1))
        fun d => by
          rw [show (dat6 V c).leavesExact 6 t = owns (c : Thread nD τ) (pt6 t).a7 fullShare ((dat6 V c).after 6 t) from by
            unfold Dat.leavesExact; rw [liveAt6_6 t ((hcond6_1 t).mpr h1)], after6_6, outsAt6_C V c t h0 h1]
          unfold wrote left6
          iintro ⟨%f, H⟩
          ihave H' := (Ring.owns_of_writes_tiledL VO6_6 S64x4.size) $$ H; iapply H'; ipureintro; sl_kernel_rfl
    · exact body_of_run6 V c t _ _ _ _ _ (kernelRun6_B c (grid6.coords t) (pt6 t) (ins6 V c t) (fun h => h0 ((hcond6_0 t).mp h)) (fun h => h1 ((hcond6_1 t).mp h)) _ _).2.2.2 (by sl_kernel_rfl) (by sl_kernel_rfl)
        ((PhiS6_castSucc V c t).trans (PhiS6_pos V c _ _ h0))
        (congrArg (·.2.1) (outsAt6_B V c t h0 h1)) (congrArg (·.2.2) (outsAt6_B V c t h0 h1))
        fun d => by rw [Dat.leavesExact_idle (dat6 V c) 6 t (idleAt6_6 t (fun h => h1 ((hcond6_1 t).mp h))) (noFlush6_6 t (fun h => h1 ((hcond6_1 t).mp h)))]; iintro H; iexists d; iexact H

theorem body_obligation6 : BodyObligation (dat6 (F := F) V c) (defs₀ (F := F)) Variants.none () Set.univ := fun t => by
  rw [bigSep_W6, bigSep_W6]
  exact sound_body6 V c t

theorem hin6 : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout6 : (dat6 V c).Φ (Fin.last cfg6.N) ⊢ Pipeline.ΦA spec6 c :=
  Phi_out6 V c _ (by rw [Fin.val_last]; have : cfg6.N = 20 := N_6; omega)

end Regions

end Cert.Kernel.FrB

end
-- ==== Proof.FrB.RunW.lean ====
import proofs.«423718_j22230750724496_1_alg».proof.Proof.FrB.R0
import proofs.«423718_j22230750724496_1_alg».proof.Proof.FrB.R1
import proofs.«423718_j22230750724496_1_alg».proof.Proof.FrB.R2
import proofs.«423718_j22230750724496_1_alg».proof.Proof.FrB.R3
import proofs.«423718_j22230750724496_1_alg».proof.Proof.FrB.R4
import proofs.«423718_j22230750724496_1_alg».proof.Proof.FrB.R5
import proofs.«423718_j22230750724496_1_alg».proof.Proof.FrB.R6
import proofs.«423718_j22230750724496_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window-array overlay leaves alone every reference whose windows' entries are the underlying contents. -/
theorem withArrays_keep {gr W : Nat} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (r : Ref sig .tc)
    (h : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw; exact (Pipeline.withArrays_arr win hinj c V A w).trans (h w rfl)
  · exact Pipeline.withArrays_of_ne win c V A r fun w e => hw ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
abbrev V10 : (c : Dev nD) → (b : Ref sig .tc) → Buf (Elt F) ((c : Thread nD τ).loc b) := fun c b => W10 m ρ c b

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N :=
  Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) :=
  Pipeline.withArrays_of_ne spec6 c _ _ b hb
abbrev V12 : (c : Dev nD) → (b : Ref sig .tc) → Buf (Elt F) ((c : Thread nD τ).loc b) := fun c b => W12 m ρ c b

/-- A reference that no host stretch writes and that no region names through an output window ends as launched. -/
theorem W12_kept (c : Dev nD) (r : Ref sig .tc)
    (h : (r ∉ hostOps0_W ∧ r ∉ hostOps1_W ∧ r ∉ hostOps3_W ∧ r ∉ hostOps5_W ∧ r ∉ hostOps6_W)
      ∧ (∀ w, Pipeline.arrRef spec0 w = r → (cfg0.win w).isOut = false)
      ∧ (∀ w, Pipeline.arrRef spec1 w = r → (cfg1.win w).isOut = false)
      ∧ (∀ w, Pipeline.arrRef spec2 w = r → (cfg2.win w).isOut = false)
      ∧ (∀ w, Pipeline.arrRef spec3 w = r → (cfg3.win w).isOut = false)
      ∧ (∀ w, Pipeline.arrRef spec4 w = r → (cfg4.win w).isOut = false)
      ∧ (∀ w, Pipeline.arrRef spec5 w = r → (cfg5.win w).isOut = false)
      ∧ (∀ w, Pipeline.arrRef spec6 w = r → (cfg6.win w).isOut = false)) :
    W12 m ρ c (Proc.devRef .tc r) = m ((c : Thread nD τ).loc r) :=
  have ⟨hh, h0, h1, h2, h3, h4, h5, h6⟩ := h
  (withArrays_keep spec6 launch6.win.arr_inj c _ _ r fun w e => ((dat6 (V11 m ρ) c).arrAt_in w (h6 w e) _).trans (A_eq6 (V11 m ρ) c w)).trans <|
  (StableHlo.after_of_writes_sub hostOps6 _ hostOps6_writes hh.2.2.2.2).trans <|
  (withArrays_keep spec5 launch5.win.arr_inj c _ _ r fun w e => ((dat5 (V9 m ρ) c).arrAt_in w (h5 w e) _).trans (A_eq5 (V9 m ρ) c w)).trans <|
  (StableHlo.after_of_writes_sub hostOps5 _ hostOps5_writes hh.2.2.2.1).trans <|
  (withArrays_keep spec4 launch4.win.arr_inj c _ _ r fun w e => ((dat4 (V7 m ρ) c).arrAt_in w (h4 w e) _).trans (A_eq4 (V7 m ρ) c w)).trans <|
  (withArrays_keep spec3 launch3.win.arr_inj c _ _ r fun w e => ((dat3 (V6 m ρ) c).arrAt_in w (h3 w e) _).trans (A_eq3 (V6 m ρ) c w)).trans <|
  (StableHlo.after_of_writes_sub hostOps3 _ hostOps3_writes hh.2.2.1).trans <|
  (withArrays_keep spec2 launch2.win.arr_inj c _ _ r fun w e => ((dat2 (V4 m ρ) c).arrAt_in w (h2 w e) _).trans (A_eq2 (V4 m ρ) c w)).trans <|
  (withArrays_keep spec1 launch1.win.arr_inj c _ _ r fun w e => ((dat1 (V3 m ρ) c).arrAt_in w (h1 w e) _).trans (A_eq1 (V3 m ρ) c w)).trans <|
  (StableHlo.after_of_writes_sub hostOps1 _ hostOps1_writes hh.2.1).trans <|
  (withArrays_keep spec0 launch0.win.arr_inj c _ _ r fun w e => ((dat0 (V1 m ρ) c).arrAt_in w (h0 w e) _).trans (A_eq0 (V1 m ρ) c w)).trans <|
  (StableHlo.after_of_writes_sub hostOps0 _ hostOps0_writes hh.1).trans rfl

end Cert.Kernel.FrB

end
-- ==== Proof.FrB.Run.lean ====
import proofs.«423718_j22230750724496_1_alg».proof.Proof.FrB.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

abbrev cf (p : Fin 7) : Cfg sig Λ₀ := Pipeline.pin (pcfgs (F := F)) adm p

set_option backward.isDefEq.respectTransparency.types false in
/-- Region `p` of the program: it leaves in its windows' arrays what its grid points wrote, and every other buffer as it found it. -/
def regOf (p : Fin 7) (lf : Pipeline.LaunchFacts (nD := nD) (τ := τ) cfgs p) (Wp : Dev nD → Valuation τ sig (Elt F))
    (hb : ∀ c, BodyObligation (pdats m ρ p c) (defs₀ (F := F)) 𝒱₀ () Set.univ)
    (hq : ∀ c w, (pdats m ρ p c).q w = fullShare)
    (hA : ∀ c w, (pdats m ρ p c).A w = Wp c (Proc.devRef .tc (Pipeline.arrRef (cf (F := F) p).spec w)))
    (howed : ∀ c t, (pdats m ρ p c).owed t = 0)
    (hrec : ∀ c t, (pdats m ρ p c).recorded t = Set.univ)
    (hin : ∀ c, Pipeline.ΦA (cf (F := F) p).spec c ⊢ (pdats m ρ p c).Φ 0)
    (hout : ∀ c, (pdats m ρ p c).Φ (Fin.last _) ⊢ Pipeline.ΦA (cf (F := F) p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig)
      (Pipeline.withArrays (cf (F := F) p).spec c (Wp c) fun w => (pdats m ρ p c).arrAt w (cf (F := F) p).N) ∗ R c)
  X c := iprop(∃ r, prngReg c r)
  Y c := iprop(∃ r, prngReg c r)
  Z c := Pipeline.unscopedRest (Ix := Unit) (Name := ℕ) (U := UR sig nD τ) (Lvl := ℕ) (cf (F := F) p).spec c (fun b => Wp c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wp c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr
      · ipureintro; intro x _; exact Or.inl (by rw [hrec]; exact Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wp c b)
      (fun b => Pipeline.withArrays (cf (F := F) p).spec c (Wp c) (fun w => (pdats m ρ p c).arrAt w (cf (F := F) p).N) b)
      ((pdats m ρ p c).arrAt · (cf (F := F) p).N)
      (fun w => (Pipeline.withArrays_arr (cf (F := F) p).spec lf.win.arr_inj c (Wp c) ((pdats m ρ p c).arrAt · (cf (F := F) p).N) w).symm)
      (fun b hb => Pipeline.withArrays_of_ne (cf (F := F) p).spec c (Wp c) ((pdats m ρ p c).arrAt · (cf (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (body_obligation0 (V1 m ρ)) (fun _ _ => rfl) (fun _ _ => rfl) (fun _ _ => rfl) (fun _ _ => rfl) (fun _ => .rfl) (fun _ => .rfl)
set_option backward.isDefEq.respectTransparency.types false in
def reg1 : Pipeline.RegionSeg (pcfgs (F := F)) adm (pdats m ρ) () defs₀ 𝒱₀ L lv 1 :=
  regOf m ρ 1 launch1 (W3 m ρ) (body_obligation1 (V3 m ρ)) (fun _ _ => rfl) (fun _ _ => rfl) (fun _ _ => rfl) (fun _ _ => rfl) (fun _ => .rfl) (fun _ => .rfl)
set_option backward.isDefEq.respectTransparency.types false in
def reg2 : Pipeline.RegionSeg (pcfgs (F := F)) adm (pdats m ρ) () defs₀ 𝒱₀ L lv 2 :=
  regOf m ρ 2 launch2 (W4 m ρ) (body_obligation2 (V4 m ρ)) (fun _ _ => rfl) (fun _ _ => rfl) (fun _ _ => rfl) (fun _ _ => rfl) (fun _ => .rfl) (fun _ => .rfl)
set_option backward.isDefEq.respectTransparency.types false in
def reg3 : Pipeline.RegionSeg (pcfgs (F := F)) adm (pdats m ρ) () defs₀ 𝒱₀ L lv 3 :=
  regOf m ρ 3 launch3 (W6 m ρ) (body_obligation3 (V6 m ρ)) (fun _ _ => rfl) (fun _ _ => rfl) (fun _ _ => rfl) (fun _ _ => rfl) (fun _ => .rfl) (fun _ => .rfl)
set_option backward.isDefEq.respectTransparency.types false in
def reg4 : Pipeline.RegionSeg (pcfgs (F := F)) adm (pdats m ρ) () defs₀ 𝒱₀ L lv 4 :=
  regOf m ρ 4 launch4 (W7 m ρ) (body_obligation4 (V7 m ρ)) (fun _ _ => rfl) (fun _ _ => rfl) (fun _ _ => rfl) (fun _ _ => rfl) (fun _ => .rfl) (fun _ => .rfl)
set_option backward.isDefEq.respectTransparency.types false in
def reg5 : Pipeline.RegionSeg (pcfgs (F := F)) adm (pdats m ρ) () defs₀ 𝒱₀ L lv 5 :=
  regOf m ρ 5 launch5 (W9 m ρ) (body_obligation5 (V9 m ρ)) (fun _ _ => rfl) (fun _ _ => rfl) (fun _ _ => rfl) (fun _ _ => rfl) (fun _ => .rfl) (fun _ => .rfl)
set_option backward.isDefEq.respectTransparency.types false in
def reg6 : Pipeline.RegionSeg (pcfgs (F := F)) adm (pdats m ρ) () defs₀ 𝒱₀ L lv 6 :=
  regOf m ρ 6 launch6 (W11 m ρ) (body_obligation6 (V11 m ρ)) (fun _ _ => rfl) (fun _ _ => rfl) (fun _ _ => rfl) (fun _ _ => rfl) (hin6 (V11 m ρ)) (hout6 (V11 m ρ))

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ), .region (reg2 m ρ),
    .host (hseg hostOps3 hostOps3_sub hostOps3_fresh (W5 m ρ)), .region (reg3 m ρ), .region (reg4 m ρ),
    .host (hseg hostOps5 hostOps5_sub hostOps5_fresh (W8 m ρ)), .region (reg5 m ρ),
    .host (hseg hostOps6 hostOps6_sub hostOps6_fresh (W10 m ρ)), .region (reg6 m ρ) ]
theorem main_run (c : Dev nD) : main (F := F) c = Pipeline.Seg.run (segs m ρ) := (main_chain c).trans (by chain_rfl)

set_option backward.isDefEq.respectTransparency.types false in
/-- Every weakly fair execution of @main from memory `m` ends, without a fault, with each core's buffers at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- The result array ends at `W12`'s contents, and every argument as launched. -/
theorem run_value : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  have k (c : Dev nD) (r : Ref sig .tc) (hu) (hk) {s : MemSt nD τ sig (Elt F)}
      (h : ∀ b ∈ Pipeline.ucRefs τ sig, s.mem (((c : Thread nD τ)).1, b) = W12 m ρ c b) :
      s.mem ((c.tc : Thread nD τ).loc r) = m ((c.tc : Thread nD τ).loc r) :=
    (h _ (mem_uc r hu)).trans (W12_kept m ρ c r hk)
  (θ_run defs _ _).mono (fun r h c =>
    ⟨h c _ (mem_uc main_v90 (by decide)),
     k c main_arg0 (by decide) (by decide) (h c),
     k c main_arg1 (by decide) (by decide) (h c),
     k c main_arg2 (by decide) (by decide) (h c),
     k c main_arg3 (by decide) (by decide) (h c),
     k c main_arg4 (by decide) (by decide) (h c),
     k c main_arg5 (by decide) (by decide) (h c),
     k c main_arg6 (by decide) (by decide) (h c),
     k c main_arg7 (by decide) (by decide) (h c),
     k c main_arg8 (by decide) (by decide) (h c),
     k c main_arg9 (by decide) (by decide) (h c),
     k c main_arg10 (by decide) (by decide) (h c),
     k c main_arg11 (by decide) (by decide) (h c),
     k c main_arg12 (by decide) (by decide) (h c)⟩) (run_all m ρ)

end Cert.Kernel.FrB

end
-- ==== Proof.FrI.R0.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x64 .f32) (x1 : Vec F S64x128 .f32) : Vec F S5000x128 .f32 :=
  View.canon [⟨Rect.unit (s := S5000x128) ![0, 0] S5000x128.size inb_S5000x128_S5000x128_0_0,
    k0_pay1 (View.ld x0 (Rect.unit (s := S5000x64) ![0, 0] S5000x64.size inb_S5000x64_S5000x64_0_0)) (View.ld x1 (Rect.unit (s := S64x128) ![0, 0] S64x128.size inb_S64x128_S64x128_0_0))⟩]

/-- The body's run on whole buffers: its one store fills the output. -/
theorem sound_kernel0 (c : Dev nD) (E i arg1 harg1 arg2 harg2 arg3 harg3) :
    Triple (c : Thread nD τ) (wp frame (wpE (defs₀ (F := F)) Variants.none c none) E (cc0__matmul_kernel i arg1 harg1 arg2 harg2 arg3 harg3)) ⟨⟩ arg1 arg2 arg3 out0_2 := by
  intro f0 f1 f2 K
  simp only [cc0__matmul_kernel_eq_skeleton]; unfold cc0__matmul_kernel_skel
  iintro ⟨H0, H1, H2, Hk⟩
  sl_exec
  sl_step
  iapply Hk
  iapply refold _ _ _ zeros2
  isplitl [H0]; · iexact H0
  isplitl [H1]; · iexact H1
  iexact H2

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  exact Triple.obligation (T := wp _ _ _ (bodyAt0 t)) (x₁ := iblk0 V c 0 t) (x₂ := iblk0 V c 1 t) (sound_kernel0 c _ _ _ _ _ _ _ _)
    (fun d => ((dat0 V c).before_in_eq_fetched 0 rfl (fun _ => rfl) (fun _ _ _ => rfl) (fun _ => rfl) t d).trans rfl)
    (fun d => ((dat0 V c).before_in_eq_fetched 1 rfl (fun _ => rfl) (fun _ _ _ => rfl) (fun _ => rfl) t d).trans rfl) rfl rfl (by dsimp only [dat0]) (by dsimp only [dat0]) (after0_2 V c t)

end Cert.KernelIdeal.FrI

end
-- ==== Proof.FrI.R1.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S5000x128 .f32) (x1 : Vec F S1x128 .f32) : Vec F S5000x128 .f32 :=
  View.canon [⟨Rect.unit (s := S5000x128) ![0, 0] S5000x128.size inb_S5000x128_S5000x128_0_0,
    k1_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel1 (c : Dev nD) (E i arg1 harg1 arg2 harg2 arg3 harg3) :
    Triple (c : Thread nD τ) (wp frame (wpE (defs₀ (F := F)) Variants.none c none) E (cc1__bias_act_kernel i arg1 harg1 arg2 harg2 arg3 harg3)) ⟨⟩ arg1 arg2 arg3 out1_2 := by
  intro f0 f1 f2 K
  simp only [cc1__bias_act_kernel_eq_skeleton]; unfold cc1__bias_act_kernel_skel
  iintro ⟨H0, H1, H2, Hk⟩
  sl_exec
  sl_step
  iapply Hk
  iapply refold _ _ _ zeros2
  isplitl [H0]; · iexact H0
  isplitl [H1]; · iexact H1
  iexact H2

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  exact Triple.obligation (T := wp _ _ _ (bodyAt1 t)) (x₁ := iblk1 V c 0 t) (x₂ := iblk1 V c 1 t) (sound_kernel1 c _ _ _ _ _ _ _ _)
    (fun d => ((dat1 V c).before_in_eq_fetched 0 rfl (fun _ => rfl) (fun _ _ _ => rfl) (fun _ => rfl) t d).trans rfl)
    (fun d => ((dat1 V c).before_in_eq_fetched 1 rfl (fun _ => rfl) (fun _ _ _ => rfl) (fun _ => rfl) t d).trans rfl) rfl rfl (by dsimp only [dat1]) (by dsimp only [dat1]) (after1_2 V c t)

end Cert.KernelIdeal.FrI

end
-- ==== Proof.FrI.R2.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x128 .f32) (x1 : Vec F S128x128 .f32) : Vec F S5000x128 .f32 :=
  View.canon [⟨Rect.unit (s := S5000x128) ![0, 0] S5000x128.size inb_S5000x128_S5000x128_0_0,
    k2_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The body's run on whole buffers: its one store fills the output. -/
theorem sound_kernel2 (c : Dev nD) (E i arg1 harg1 arg2 harg2 arg3 harg3) :
    Triple (c : Thread nD τ) (wp frame (wpE (defs₀ (F := F)) Variants.none c none) E (cc2__matmul_kernel i arg1 harg1 arg2 harg2 arg3 harg3)) ⟨⟩ arg1 arg2 arg3 out2_2 := by
  intro f0 f1 f2 K
  simp only [cc2__matmul_kernel_eq_skeleton]; unfold cc2__matmul_kernel_skel
  iintro ⟨H0, H1, H2, Hk⟩
  sl_exec
  sl_step
  iapply Hk
  iapply refold _ _ _ zeros2
  isplitl [H0]; · iexact H0
  isplitl [H1]; · iexact H1
  iexact H2

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  exact Triple.obligation (T := wp _ _ _ (bodyAt2 t)) (x₁ := iblk2 V c 0 t) (x₂ := iblk2 V c 1 t) (sound_kernel2 c _ _ _ _ _ _ _ _)
    (fun d => ((dat2 V c).before_in_eq_fetched 0 rfl (fun _ => rfl) (fun _ _ _ => rfl) (fun _ => rfl) t d).trans rfl)
    (fun d => ((dat2 V c).before_in_eq_fetched 1 rfl (fun _ => rfl) (fun _ _ _ => rfl) (fun _ => rfl) t d).trans rfl) rfl rfl (by dsimp only [dat2]) (by dsimp only [dat2]) (after2_2 V c t)

end Cert.KernelIdeal.FrI

end
-- ==== Proof.FrI.R3.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨Rect.unit (s := S5000x128) ![0, 0] S5000x128.size inb_S5000x128_S5000x128_0_0,
    k3_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel3 (c : Dev nD) (E i arg1 harg1 arg2 harg2 arg3 harg3) :
    Triple (c : Thread nD τ) (wp frame (wpE (defs₀ (F := F)) Variants.none c none) E (cc3__bias_act_kernel i arg1 harg1 arg2 harg2 arg3 harg3)) ⟨⟩ arg1 arg2 arg3 out3_2 := by
  intro f0 f1 f2 K
  simp only [cc3__bias_act_kernel_eq_skeleton]; unfold cc3__bias_act_kernel_skel
  iintro ⟨H0, H1, H2, Hk⟩
  sl_exec
  sl_step
  iapply Hk
  iapply refold _ _ _ zeros2
  isplitl [H0]; · iexact H0
  isplitl [H1]; · iexact H1
  iexact H2

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  exact Triple.obligation (T := wp _ _ _ (bodyAt3 t)) (x₁ := iblk3 V c 0 t) (x₂ := iblk3 V c 1 t) (sound_kernel3 c _ _ _ _ _ _ _ _)
    (fun d => ((dat3 V c).before_in_eq_fetched 0 rfl (fun _ => rfl) (fun _ _ _ => rfl) (fun _ => rfl) t d).trans rfl)
    (fun d => ((dat3 V c).before_in_eq_fetched 1 rfl (fun _ => rfl) (fun _ _ _ => rfl) (fun _ => rfl) t d).trans rfl) rfl rfl (by dsimp only [dat3]) (by dsimp only [dat3]) (after3_2 V c t)

end Cert.KernelIdeal.FrI

end
-- ==== Proof.FrI.R4.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .f32) : Vec F S5000x128 .f32 :=
  View.canon [⟨Rect.unit (s := S5000x128) ![0, 0] S5000x128.size inb_S5000x128_S5000x128_0_0,
    k4_pay1 (View.ld x0 (Rect.unit (s := S5000x128) ![0, 0] S5000x128.size inb_S5000x128_S5000x128_0_0)) (View.ld x1 (Rect.unit (s := S128x128) ![0, 0] S128x128.size inb_S128x128_S128x128_0_0))⟩]

/-- The body's run on whole buffers: its one store fills the output. -/
theorem sound_kernel4 (c : Dev nD) (E i arg1 harg1 arg2 harg2 arg3 harg3) :
    Triple (c : Thread nD τ) (wp frame (wpE (defs₀ (F := F)) Variants.none c none) E (cc4__matmul_kernel i arg1 harg1 arg2 harg2 arg3 harg3)) ⟨⟩ arg1 arg2 arg3 out4_2 := by
  intro f0 f1 f2 K
  simp only [cc4__matmul_kernel_eq_skeleton]; unfold cc4__matmul_kernel_skel
  iintro ⟨H0, H1, H2, Hk⟩
  sl_exec
  sl_step
  iapply Hk
  iapply refold _ _ _ zeros2
  isplitl [H0]; · iexact H0
  isplitl [H1]; · iexact H1
  iexact H2

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_2 (c : Dev nD) (t : Fin cfg4.N) : (dat4 V c).after 2 t = out4_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  exact Triple.obligation (T := wp _ _ _ (bodyAt4 t)) (x₁ := iblk4 V c 0 t) (x₂ := iblk4 V c 1 t) (sound_kernel4 c _ _ _ _ _ _ _ _)
    (fun d => ((dat4 V c).before_in_eq_fetched 0 rfl (fun _ => rfl) (fun _ _ _ => rfl) (fun _ => rfl) t d).trans rfl)
    (fun d => ((dat4 V c).before_in_eq_fetched 1 rfl (fun _ => rfl) (fun _ _ _ => rfl) (fun _ => rfl) t d).trans rfl) rfl rfl (by dsimp only [dat4]) (by dsimp only [dat4]) (after4_2 V c t)

end Cert.KernelIdeal.FrI

end
-- ==== Proof.FrI.R5.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import proofs.«423718_j22230750724496_1_alg».proof.Proof.RegionLib

noncomputable section

namespace Cert.KernelIdeal.FrI

open Cert.KernelIdeal Cert.KernelIdeal.Gen Cert.RegionLib
open Idealize.ShloMosaic Idealize.ShloMosaic.TcCoe Idealize.ShloMosaic.Tactic
open Idealize.SL Idealize.SL.RA Idealize.SL.BI Idealize.SL.Sem Idealize.SL.ProofMode
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 :=
  View.canon [⟨Rect.unit (s := S5000x128) ![0, 0] S5000x128.size inb_S5000x128_S5000x128_0_0,
    k5_pay1 (View.ld x0 (Rect.unit (s := S5000x128) ![0, 0] S5000x128.size inb_S5000x128_S5000x128_0_0)) (View.ld x1 (Rect.unit (s := S1x128) ![0, 0] S1x128.size inb_S1x128_S1x128_0_0))⟩]

/-- The body's run on whole buffers: its one store fills the output. -/
theorem sound_kernel5 (c : Dev nD) (E i arg1 harg1 arg2 harg2 arg3 harg3) :
    Triple (c : Thread nD τ) (wp frame (wpE (defs₀ (F := F)) Variants.none c none) E (cc5__bias_act_kernel i arg1 harg1 arg2 harg2 arg3 harg3)) ⟨⟩ arg1 arg2 arg3 out5_2 := by
  intro f0 f1 f2 K
  simp only [cc5__bias_act_kernel_eq_skeleton]; unfold cc5__bias_act_kernel_skel
  iintro ⟨H0, H1, H2, Hk⟩
  sl_exec
  sl_step
  iapply Hk
  iapply refold _ _ _ zeros2
  isplitl [H0]; · iexact H0
  isplitl [H1]; · iexact H1
  iexact H2

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]

theorem after5_2 (c : Dev nD) (t : Fin cfg5.N) : (dat5 V c).after 2 t = out5_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  exact Triple.obligation (T := wp _ _ _ (bodyAt5 t)) (x₁ := iblk5 V c 0 t) (x₂ := iblk5 V c 1 t) (sound_kernel5 c _ _ _ _ _ _ _ _)
    (fun d => ((dat5 V c).before_in_eq_fetched 0 rfl (fun _ => rfl) (fun _ _ _ => rfl) (fun _ => rfl) t d).trans rfl)
    (fun d => ((dat5 V c).before_in_eq_fetched 1 rfl (fun _ => rfl) (fun _ _ _ => rfl) (fun _ => rfl) t d).trans rfl) rfl rfl (by dsimp only [dat5]) (by dsimp only [dat5]) (after5_2 V c t)

end Cert.KernelIdeal.FrI

end
-- ==== Proof.FrI.R6Runs.lean ====
import proofs.«423718_j22230750724496_1_alg».proof.Proof.Gen.KernelIdeal.Launch
import proofs.«423718_j22230750724496_1_alg».proof.Proof.Gen.KernelIdeal.Skeleton
import proofs.«423718_j22230750724496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The block of array `w` that point `t` works on, at the region-entry contents `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

end Regions

abbrev cond6_0 (i : grid6.Coords) : Prop := (Scalar.cmpi .ne (Scalar.extui (Scalar.cmpi .eq (BitVec.ofNat 32 (i 0).val) 0#32)) 0#32) = 1#1
/-- The first test holds at point 0 only, the second at point 19 only. -/
theorem hcond6_0 : ∀ t : Fin cfg6.N, cond6_0 (grid6.coords t) ↔ t.val = 0 :=
  (by decide +kernel : ∀ t : Fin grid6.N, cond6_0 (grid6.coords t) ↔ t.val = 0)
abbrev cond6_1 (i : grid6.Coords) : Prop := k6_cond2 i = 1#1
theorem hcond6_1 : ∀ t : Fin cfg6.N, cond6_1 (grid6.coords t) ↔ t.val = 19 :=
  (by decide +kernel : ∀ t : Fin grid6.N, cond6_1 (grid6.coords t) ↔ t.val = 19)

theorem liveAt6 : ∀ w : Fin cfg6.W, w ≠ 6 → ∀ t : Fin cfg6.N, cfg6.idle w (grid6.coords t) = false := by decide +kernel
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

abbrev VO6_6 : View sig .tc .vmem S64x4 .f32 := (Memref.whole cc6_stg6_0 : Memref sig .tc .vmem S64x4 .f32).view
abbrev scM6_0 : Memref sig .tc .vmem S128x128 .f32 := Memref.whole cc6_scratch0
abbrev scM6_1 : Memref sig .tc .vmem S128x128 .f32 := Memref.whole cc6_scratch1
abbrev VS6_0 : View sig .tc .vmem S128x128 .f32 := scM6_0.view
abbrev VS6_1 : View sig .tc .vmem S128x128 .f32 := scM6_1.view

/-- The nine memrefs the body is called on (six inputs, the output, the two accumulators), each whole. -/
structure Args6 where
  a1 : Memref sig .tc .vmem S5000x128 .f32
  h1 : a1.IsWhole
  a2 : Memref sig .tc .vmem S5000x1 .i32
  h2 : a2.IsWhole
  a3 : Memref sig .tc .vmem S128x128 .f32
  h3 : a3.IsWhole
  a4 : Memref sig .tc .vmem S1x128 .f32
  h4 : a4.IsWhole
  a5 : Memref sig .tc .vmem S128x4 .f32
  h5 : a5.IsWhole
  a6 : Memref sig .tc .vmem S1x4 .f32
  h6 : a6.IsWhole
  a7 : Memref sig .tc .vmem S64x4 .f32
  h7 : a7.IsWhole
  a8 : Memref sig .tc .vmem S128x128 .f32
  h8 : a8.IsWhole
  a9 : Memref sig .tc .vmem S128x128 .f32
  h9 : a9.IsWhole

/-- The six inputs' blocks. -/
structure Ins6 (F : FTy → Type) where
  x0 : Vec F S5000x128 .f32
  x1 : Vec F S5000x1 .i32
  x2 : Vec F S128x128 .f32
  x3 : Vec F S1x128 .f32
  x4 : Vec F S128x4 .f32
  x5 : Vec F S1x4 .f32

/-- The body's memrefs at point `t`. -/
abbrev pt6 (t : Fin cfg6.N) : Args6 :=
  ⟨win6_0.stage (cfg6.slots t 0), hstage6_0 ((cfg6.slots t 0).cast nbuf6_0), win6_1.stage (cfg6.slots t 1), hstage6_1 ((cfg6.slots t 1).cast nbuf6_1), win6_2.stage (cfg6.slots t 2), hstage6_2 ((cfg6.slots t 2).cast nbuf6_2), win6_3.stage (cfg6.slots t 3), hstage6_3 ((cfg6.slots t 3).cast nbuf6_3), win6_4.stage (cfg6.slots t 4), hstage6_4 ((cfg6.slots t 4).cast nbuf6_4), win6_5.stage (cfg6.slots t 5), hstage6_5 ((cfg6.slots t 5).cast nbuf6_5), win6_6.stage (cfg6.slots t 6), hstage6_6 ((cfg6.slots t 6).cast nbuf6_6), scM6_0, Memref.isWhole_whole _, scM6_1, Memref.isWhole_whole _⟩

abbrev body6 (i : grid6.Coords) (p : Args6) :=
  cc6__pool_mlp_kernel (F := F) i p.a1 p.h1 p.a2 p.h2 p.a3 p.h3 p.a4 p.h4 p.a5 p.h5 p.a6 p.h6 p.a7 p.h7 p.a8 p.h8 p.a9 p.h9

/-- The six inputs owned at their blocks, beside `R`. -/
def insAt (c : Dev nD) (p : Args6) (x : Ins6 F) (R : sProp 𝕄) : sProp 𝕄 :=
  iprop(owns (c : Thread nD τ) p.a1 fullShare x.x0 ∗ owns (c : Thread nD τ) p.a2 fullShare x.x1 ∗ owns (c : Thread nD τ) p.a3 fullShare x.x2 ∗ owns (c : Thread nD τ) p.a4 fullShare x.x3 ∗ owns (c : Thread nD τ) p.a5 fullShare x.x4 ∗ owns (c : Thread nD τ) p.a6 fullShare x.x5 ∗ R)

/-- A buffer holding the stores `L`, latest first, over some contents. -/
def wrote (c : Dev nD) {S : Shape} {e : EltTy} (m : Memref sig .tc .vmem S e) (L : List (View.Piece (Elt F) S e)) : sProp 𝕄 :=
  iprop(∃ f, m.view.loc (c : Thread nD τ) ↦[m.view.set]{fullShare} m.view.writes (Elt F) f L)

/-- A whole memref owned at `X` is its buffer at the contents read as `X`. -/
theorem owns_eq_unread (c : Dev nD) {S : Shape} {e : EltTy} {m : Memref sig .tc .vmem S e} (h : m.IsWhole) (q : PosShare TreeShare) (X : Vec F S e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread _
    iexact H
  exact BI.equiv_iff.mp ⟨h₁, h₂⟩

abbrev restBut6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ restBut6 (F := F) c) ∗ (∃ r, prngReg c r)) := by
  unfold Pipeline.ΦA; rw [scopedRest6_split]; simp only [scM6_0, scM6_1, owns_whole]; try rfl

end Cert.KernelIdeal.FrI

end
-- ==== Proof.FrI.R6RunA.lean ====
import proofs.«423718_j22230750724496_1_alg».proof.Proof.FrI.R6Runs

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A (the first point), from accumulators at any contents: the run finds the stores `L6`, `LS0`, `LS1` and proves the body's triple in continuation form. -/
def kernelRun6_A (c : Dev nD) (i : grid6.Coords) (p : Args6) (x : Ins6 F) (hc0 : cond6_0 i) (hc1 : ¬cond6_1 i) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ (∃ d, owns (c : Thread nD τ) p.a8 fullShare d) ∗ (∃ d, owns (c : Thread nD τ) p.a9 fullShare d)
            ∗ (insAt c p x iprop(owns (c : Thread nD τ) p.a7 fullShare xi6 ∗ wrote c p.a8 LS0 ∗ wrote c p.a9 LS1) -∗ K ⟨⟩))
          ⊢ wp frame (wpE (defs₀ (F := F)) Variants.none c none) E (body6 (F := F) i p) K } := by
  refine ⟨[], ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7]
    unfold owns
    simp only [cc6__pool_mlp_kernel_eq_skeleton]; unfold cc6__pool_mlp_kernel_skel
    iintro ⟨H0, H1, H2, H3, H4, H5, H6, ⟨%ds0, %fs0, -, HS0⟩, ⟨%ds1, %fs1, -, HS1⟩, Hk⟩
    sl_exec (disch := first | exact hc0 | exact hc1)
    sl_step
    iapply Hk
    iframe H0 H1 H2 H3 H4 H5 H6
    isplitl [HS0]; · iexists _; iexact HS0
    iexists _; iexact HS1

end Cert.KernelIdeal.FrI

end
-- ==== Proof.FrI.R6RunB.lean ====
import proofs.«423718_j22230750724496_1_alg».proof.Proof.FrI.R6Runs

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B (a middle point): as case A, from accumulators at given contents. -/
def kernelRun6_B (c : Dev nD) (i : grid6.Coords) (p : Args6) (x : Ins6 F) (hc0 : ¬cond6_0 i) (hc1 : ¬cond6_1 i) (xs0 xs1 : Vec F S128x128 .f32) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ owns (c : Thread nD τ) p.a8 fullShare xs0 ∗ owns (c : Thread nD τ) p.a9 fullShare xs1
            ∗ (insAt c p x iprop(owns (c : Thread nD τ) p.a7 fullShare xi6 ∗ wrote c p.a8 LS0 ∗ wrote c p.a9 LS1) -∗ K ⟨⟩))
          ⊢ wp frame (wpE (defs₀ (F := F)) Variants.none c none) E (body6 (F := F) i p) K } := by
  refine ⟨[], ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7, owns_eq_unread c p.h8, owns_eq_unread c p.h9]
    simp only [cc6__pool_mlp_kernel_eq_skeleton]; unfold cc6__pool_mlp_kernel_skel
    iintro ⟨H0, H1, H2, H3, H4, H5, H6, HS0, HS1, Hk⟩
    sl_exec (disch := first | exact hc0 | exact hc1)
    sl_step
    iapply Hk
    iframe H0 H1 H2 H3 H4 H5 H6
    isplitl [HS0]; · iexists _; iexact HS0
    iexists _; iexact HS1

end Cert.KernelIdeal.FrI

end
-- ==== Proof.FrI.R6RunC.lean ====
import proofs.«423718_j22230750724496_1_alg».proof.Proof.FrI.R6Runs

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C (the last point): as case B, and the output's buffer is stored into. -/
def kernelRun6_C (c : Dev nD) (i : grid6.Coords) (p : Args6) (x : Ins6 F) (hc0 : ¬cond6_0 i) (hc1 : cond6_1 i) (xs0 xs1 : Vec F S128x128 .f32) :
    Σ' (L6 : List (View.Piece (Elt F) S64x4 .f32)) (LS0 : List (View.Piece (Elt F) S128x128 .f32)), { LS1 : List (View.Piece (Elt F) S128x128 .f32) //
      ∀ (xi6 : Vec F S64x4 .f32) (E : Set ℕ) (K : PUnit → sProp 𝕄),
        insAt c p x iprop(owns (c : Thread nD τ) p.a7 fullShare xi6 ∗ owns (c : Thread nD τ) p.a8 fullShare xs0 ∗ owns (c : Thread nD τ) p.a9 fullShare xs1
            ∗ (insAt c p x iprop(wrote c p.a7 L6 ∗ wrote c p.a8 LS0 ∗ wrote c p.a9 LS1) -∗ K ⟨⟩))
          ⊢ wp frame (wpE (defs₀ (F := F)) Variants.none c none) E (body6 (F := F) i p) K } := by
  refine ⟨?_, ?_, ?_, fun xi6 E K => ?run⟩
  case run =>
    unfold body6 insAt wrote
    rw [owns_eq_unread c p.h1, owns_eq_unread c p.h2, owns_eq_unread c p.h3, owns_eq_unread c p.h4, owns_eq_unread c p.h5, owns_eq_unread c p.h6, owns_eq_unread c p.h7, owns_eq_unread c p.h8, owns_eq_unread c p.h9]
    simp only [cc6__pool_mlp_kernel_eq_skeleton]; unfold cc6__pool_mlp_kernel_skel
    iintro ⟨H0, H1, H2, H3, H4, H5, H6, HS0, HS1, Hk⟩
    sl_exec (disch := first | exact hc0 | exact hc1)
    sl_step
    iapply Hk
    iframe H0 H1 H2 H3 H4 H5
    isplitl [H6]; · iexists _; iexact H6
    isplitl [HS0]; · iexists _; iexact HS0
    iexists _; iexact HS1

end Cert.KernelIdeal.FrI

end
-- ==== Proof.FrI.R6.lean ====
import proofs.«423718_j22230750724496_1_alg».proof.Proof.FrI.R6RunA
import proofs.«423718_j22230750724496_1_alg».proof.Proof.FrI.R6RunB
import proofs.«423718_j22230750724496_1_alg».proof.Proof.FrI.R6RunC

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What lists of stores leave in the output's buffer and the two accumulators: the stores read back. -/
def left6 {P : List (View.Piece (Elt F) S64x4 .f32) → List (View.Piece (Elt F) S128x128 .f32) → List (View.Piece (Elt F) S128x128 .f32) → Prop}
    (r : Σ' L6 LS0, { LS1 // P L6 LS0 LS1 }) : Vec F S64x4 .f32 × Vec F S128x128 .f32 × Vec F S128x128 .f32 :=
  (VO6_6.read (Elt F) (VO6_6.writes (Elt F) VO6_6.junk r.1), VS6_0.read (Elt F) (VS6_0.writes (Elt F) VS6_0.junk r.2.1), VS6_1.read (Elt F) (VS6_1.writes (Elt F) VS6_1.junk r.2.2.1))

section Regions
variable (V : (c : Dev nD) → (b : Ref sig .tc) → Buf (Elt F) ((c : Thread nD τ).loc b)) (c : Dev nD) (t : Fin cfg6.N)

abbrev ins6 : Ins6 F :=
  ⟨iblk6 V c 0 t, iblk6 V c 1 t, iblk6 V c 2 t, iblk6 V c 3 t, iblk6 V c 4 t, iblk6 V c 5 t⟩

/-- The accumulation: the triple (output, sums, counts) left at position `n`, by recursion on `n` through the case of the point. -/
def outsAt6 : (n : ℕ) → n < cfg6.N → Vec F S64x4 .f32 × Vec F S128x128 .f32 × Vec F S128x128 .f32
  | 0, hn => left6 (kernelRun6_A c (grid6.coords ⟨0, hn⟩) (pt6 ⟨0, hn⟩) (ins6 V c ⟨0, hn⟩) ((hcond6_0 ⟨0, hn⟩).mpr rfl) fun h => absurd ((hcond6_1 ⟨0, hn⟩).mp h) (by decide : (0 : ℕ) ≠ 19))
  | n + 1, hn =>
    if h1 : n + 1 = 19 then
      left6 (kernelRun6_C c (grid6.coords ⟨n + 1, hn⟩) (pt6 ⟨n + 1, hn⟩) (ins6 V c ⟨n + 1, hn⟩) (fun h => absurd ((hcond6_0 ⟨n + 1, hn⟩).mp h) (Nat.succ_ne_zero n)) ((hcond6_1 ⟨n + 1, hn⟩).mpr h1) (outsAt6 n (Nat.lt_of_succ_lt hn)).2.1 (outsAt6 n (Nat.lt_of_succ_lt hn)).2.2)
    else
      left6 (kernelRun6_B c (grid6.coords ⟨n + 1, hn⟩) (pt6 ⟨n + 1, hn⟩) (ins6 V c ⟨n + 1, hn⟩) (fun h => absurd ((hcond6_0 ⟨n + 1, hn⟩).mp h) (Nat.succ_ne_zero n)) (fun h => h1 ((hcond6_1 ⟨n + 1, hn⟩).mp h)) (outsAt6 n (Nat.lt_of_succ_lt hn)).2.1 (outsAt6 n (Nat.lt_of_succ_lt hn)).2.2)

theorem outsAt6_A (h0 : t.val = 0) (h1 : ¬t.val = 19) :
    outsAt6 V c t.val t.isLt = left6 (kernelRun6_A c (grid6.coords t) (pt6 t) (ins6 V c t) ((hcond6_0 t).mpr h0) (fun h => h1 ((hcond6_1 t).mp h))) := by
  obtain ⟨n, hn⟩ := t
  cases n with
  | zero => exact rfl
  | succ n => exact absurd h0 (Nat.succ_ne_zero n)

theorem outsAt6_B (h0 : ¬t.val = 0) (h1 : ¬t.val = 19) :
    outsAt6 V c t.val t.isLt = left6 (kernelRun6_B c (grid6.coords t) (pt6 t) (ins6 V c t) (fun h => h0 ((hcond6_0 t).mp h)) (fun h => h1 ((hcond6_1 t).mp h)) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt6_C (h0 : ¬t.val = 0) (h1 : t.val = 19) :
    outsAt6 V c t.val t.isLt = left6 (kernelRun6_C c (grid6.coords t) (pt6 t) (ins6 V c t) (fun h => h0 ((hcond6_0 t).mp h)) ((hcond6_1 t).mpr h1) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd rfl h0
  | succ n => exact (dif_pos h1).trans rfl

def sum6 (n : ℕ) (h : n < cfg6.N) : Vec F S128x128 .f32 := (outsAt6 V c n h).2.1
def cnt6 (n : ℕ) (h : n < cfg6.N) : Vec F S128x128 .f32 := (outsAt6 V c n h).2.2

/-- The invariant at position `n`: from position 1 on, the accumulators are owned at `outsAt6 (n - 1)`'s last two components. -/
def PhiS6 : (n : ℕ) → n ≤ cfg6.N → sProp 𝕄
  | 0, _ => Pipeline.ΦA spec6 c
  | n + 1, hn => iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r))

theorem PhiS6_zero (n : ℕ) (h : n ≤ cfg6.N) (hz : n = 0) : PhiS6 V c n h = Pipeline.ΦA spec6 c := by
  subst hz; rfl

theorem PhiS6_succ (n : ℕ) (hn : n < cfg6.N) :
    PhiS6 V c (n + 1) hn = iprop(iprop(iprop(owns (c : Thread nD τ) scM6_0 fullShare ((outsAt6 V c n hn).2.1) ∗ owns (c : Thread nD τ) scM6_1 fullShare ((outsAt6 V c n hn).2.2)) ∗ restBut6 (F := F) c) ∗ (∃ r, prngReg c r)) := rfl

theorem PhiS6_pos (n : ℕ) (h : n ≤ cfg6.N) (hz : n ≠ 0) :
    PhiS6 V c n h = iprop(iprop(iprop(owns (c : Thread nD τ) scM6_0 fullShare ((outsAt6 V c (n - 1) (by omega)).2.1) ∗ owns (c : Thread nD τ) scM6_1 fullShare ((outsAt6 V c (n - 1) (by omega)).2.2)) ∗ restBut6 (F := F) c) ∗ (∃ r, prngReg c r)) := by
  cases n with
  | zero => exact absurd rfl hz
  | succ n => rfl

/-- What the body leaves in each buffer (`after`: the inputs' blocks, and `outsAt6`'s first component in the output's) and the invariant between points (`Φ`). -/
def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
  Φ t := PhiS6 V c t.val (Nat.le_of_lt_succ t.isLt)
  q _ := fullShare
  owed _ := 0

theorem A_eq6 (w : Fin cfg6.W) : (dat6 V c).A w = V c (Pipeline.arrRef spec6 w) := by
  dsimp only [dat6]

theorem q_eq6 (w : Fin cfg6.W) : (dat6 V c).q w = fullShare := rfl
theorem owed_eq6 (t : Fin (cfg6.N + 1)) : (dat6 V c).owed t = 0 := rfl
theorem recorded_eq6 (t : Fin (cfg6.N + 1)) : (dat6 V c).recorded t = Set.univ := rfl

theorem PhiS6_castSucc :
    (dat6 V c).Φ t.castSucc = PhiS6 V c t.val (Nat.le_of_lt t.isLt) := by
  dsimp only [dat6]; simp only [Fin.coe_castSucc]

theorem after6_6 : (dat6 V c).after 6 t = (outsAt6 V c t.val t.isLt).1 := by dsimp only [dat6]

theorem before6_0 (d) : (dat6 V c).before 0 t d = iblk6 V c 0 t :=
  ((dat6 V c).before_in_eq_fetched 0 rfl (fun _ => rfl) (fun _ _ _ => rfl) (fun _ => rfl) t d).trans rfl
theorem before6_1 (d) : (dat6 V c).before 1 t d = iblk6 V c 1 t :=
  ((dat6 V c).before_in_eq_fetched 1 rfl (fun _ => rfl) (fun _ _ _ => rfl) (fun _ => rfl) t d).trans rfl
theorem before6_2 (d) : (dat6 V c).before 2 t d = iblk6 V c 2 t :=
  ((dat6 V c).before_in_eq_fetched 2 rfl (fun _ => rfl) (fun _ _ _ => rfl) (fun _ => rfl) t d).trans rfl
theorem before6_3 (d) : (dat6 V c).before 3 t d = iblk6 V c 3 t :=
  ((dat6 V c).before_in_eq_fetched 3 rfl (fun _ => rfl) (fun _ _ _ => rfl) (fun _ => rfl) t d).trans rfl
theorem before6_4 (d) : (dat6 V c).before 4 t d = iblk6 V c 4 t :=
  ((dat6 V c).before_in_eq_fetched 4 rfl (fun _ => rfl) (fun _ _ _ => rfl) (fun _ => rfl) t d).trans rfl
theorem before6_5 (d) : (dat6 V c).before 5 t d = iblk6 V c 5 t :=
  ((dat6 V c).before_in_eq_fetched 5 rfl (fun _ => rfl) (fun _ _ _ => rfl) (fun _ => rfl) t d).trans rfl

/-- The two sides of the body obligation at point `t`. -/
def bodyPre6 : sProp 𝕄 :=
  iprop((dat6 V c).Φ t.castSucc ∗ (dat6 V c).owesAt () t.castSucc
    ∗ (∃ d, owns (c : Thread nD τ) (pt6 t).a1 fullShare ((dat6 V c).before 0 t d))
    ∗ (∃ d, owns (c : Thread nD τ) (pt6 t).a2 fullShare ((dat6 V c).before 1 t d))
    ∗ (∃ d, owns (c : Thread nD τ) (pt6 t).a3 fullShare ((dat6 V c).before 2 t d))
    ∗ (∃ d, owns (c : Thread nD τ) (pt6 t).a4 fullShare ((dat6 V c).before 3 t d))
    ∗ (∃ d, owns (c : Thread nD τ) (pt6 t).a5 fullShare ((dat6 V c).before 4 t d))
    ∗ (∃ d, owns (c : Thread nD τ) (pt6 t).a6 fullShare ((dat6 V c).before 5 t d))
    ∗ (∃ d, owns (c : Thread nD τ) (pt6 t).a7 fullShare ((dat6 V c).before 6 t d)))

def bodyPost6 : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

/-- The body at a point, from the run of the point's case: the invariant holds the accumulators as the run takes them (`P0`, `P1`), the run's stores tile them and read back as the accumulation's components, and the run leaves the output's buffer (`Q`) as the obligation wants it. -/
theorem body_of_run6 (P0 P1 : sProp 𝕄) (Q : Vec F S64x4 .f32 → sProp 𝕄) (LS0 LS1 : List (View.Piece (Elt F) S128x128 .f32))
    (hrun : ∀ (xi6 : Vec F S64x4 .f32) (E : Set ℕ) (K : PUnit → sProp 𝕄),
      insAt c (pt6 t) (ins6 V c t) iprop(owns (c : Thread nD τ) (pt6 t).a7 fullShare xi6 ∗ P0 ∗ P1
          ∗ (insAt c (pt6 t) (ins6 V c t) iprop(Q xi6 ∗ wrote c (pt6 t).a8 LS0 ∗ wrote c (pt6 t).a9 LS1) -∗ K ⟨⟩))
        ⊢ wp frame (wpE (defs₀ (F := F)) Variants.none c none) E (body6 (F := F) (grid6.coords t) (pt6 t)) K)
    (h0 : View.Piece.tiledL LS0 S128x128.size = true) (h1 : View.Piece.tiledL LS1 S128x128.size = true)
    (hΦ : (dat6 V c).Φ t.castSucc = iprop(iprop(iprop(P0 ∗ P1) ∗ restBut6 (F := F) c) ∗ (∃ r, prngReg c r)))
    (ho0 : (outsAt6 V c t.val t.isLt).2.1 = VS6_0.read (Elt F) (VS6_0.writes (Elt F) VS6_0.junk LS0))
    (ho1 : (outsAt6 V c t.val t.isLt).2.2 = VS6_1.read (Elt F) (VS6_1.writes (Elt F) VS6_1.junk LS1))
    (hQ : ∀ d, Q ((dat6 V c).before 6 t d) ⊢ (dat6 V c).leavesExact 6 t) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ, hΦ, ho0, ho1]
  rw [show (dat6 V c).leavesExact 0 t = owns (c : Thread nD τ) (pt6 t).a1 fullShare (iblk6 V c 0 t) from by
    unfold Dat.leavesExact; rw [liveAt6 0 (by decide) t] <;> rfl]
  rw [show (dat6 V c).leavesExact 1 t = owns (c : Thread nD τ) (pt6 t).a2 fullShare (iblk6 V c 1 t) from by
    unfold Dat.leavesExact; rw [liveAt6 1 (by decide) t] <;> rfl]
  rw [show (dat6 V c).leavesExact 2 t = owns (c : Thread nD τ) (pt6 t).a3 fullShare (iblk6 V c 2 t) from by
    unfold Dat.leavesExact; rw [liveAt6 2 (by decide) t] <;> rfl]
  rw [show (dat6 V c).leavesExact 3 t = owns (c : Thread nD τ) (pt6 t).a4 fullShare (iblk6 V c 3 t) from by
    unfold Dat.leavesExact; rw [liveAt6 3 (by decide) t] <;> rfl]
  rw [show (dat6 V c).leavesExact 4 t = owns (c : Thread nD τ) (pt6 t).a5 fullShare (iblk6 V c 4 t) from by
    unfold Dat.leavesExact; rw [liveAt6 4 (by decide) t] <;> rfl]
  rw [show (dat6 V c).leavesExact 5 t = owns (c : Thread nD τ) (pt6 t).a6 fullShare (iblk6 V c 5 t) from by
    unfold Dat.leavesExact; rw [liveAt6 5 (by decide) t] <;> rfl]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (hrun _ Set.univ _)
  unfold insAt wrote
  iframe H0 H1 H2 H3 H4 H5 H6 HS0 HS1
  iintro ⟨H0, H1, H2, H3, H4, H5, HQ, ⟨%es0, HS0⟩, ⟨%es1, HS1⟩⟩
  iframe HR Hg Ho H0 H1 H2 H3 H4 H5
  isplitl [HS0 HS1]
  · isplitl [HS0]
    · ihave H' := (Ring.owns_of_writes_tiledL VS6_0 S128x128.size) $$ HS0; iapply H'; ipureintro; exact h0
    ihave H' := (Ring.owns_of_writes_tiledL VS6_1 S128x128.size) $$ HS1; iapply H'; ipureintro; exact h1
  iapply (hQ d6); iexact HQ

set_option maxHeartbeats 4800000 in
/-- The body at every point, by cases on the point's position. -/
theorem sound_body6 :
    bodyPre6 V c t ⊢ wp frame (wpE (defs₀ (F := F)) Variants.none c none) Set.univ (bodyAt6 t) (fun _ => bodyPost6 V c t) := by
  have hN : t.val < 20 := lt_of_lt_of_eq t.isLt (show cfg6.N = 20 from N_6)
  by_cases h0 : t.val = 0
  · have h1 : ¬t.val = 19 := by omega
    exact body_of_run6 V c t _ _ _ _ _ (kernelRun6_A c (grid6.coords t) (pt6 t) (ins6 V c t) ((hcond6_0 t).mpr h0) (fun h => h1 ((hcond6_1 t).mp h))).2.2.2 (by sl_kernel_rfl) (by sl_kernel_rfl)
      ((PhiS6_castSucc V c t).trans ((PhiS6_zero V c _ _ h0).trans (PhiA6_eq c)))
      (congrArg (·.2.1) (outsAt6_A V c t h0 h1)) (congrArg (·.2.2) (outsAt6_A V c t h0 h1))
      fun d => by rw [Dat.leavesExact_idle (dat6 V c) 6 t (idleAt6_6 t (fun h => h1 ((hcond6_1 t).mp h))) (noFlush6_6 t (fun h => h1 ((hcond6_1 t).mp h)))]; iintro H; iexists d; iexact H
  · by_cases h1 : t.val = 19
    · exact body_of_run6 V c t _ _ _ _ _ (kernelRun6_C c (grid6.coords t) (pt6 t) (ins6 V c t) (fun h => h0 ((hcond6_0 t).mp h)) ((hcond6_1 t).mpr h1) _ _).2.2.2 (by sl_kernel_rfl) (by sl_kernel_rfl)
        ((PhiS6_castSucc V c t).trans (PhiS6_pos V c _ _ h0))
        (congrArg (·.2.1) (outsAt6_C V c t h0 h1)) (congrArg (·.2.2) (outsAt6_C V c t h0 h1))
        fun d => by
          rw [show (dat6 V c).leavesExact 6 t = owns (c : Thread nD τ) (pt6 t).a7 fullShare ((dat6 V c).after 6 t) from by
            unfold Dat.leavesExact; rw [liveAt6_6 t ((hcond6_1 t).mpr h1)], after6_6, outsAt6_C V c t h0 h1]
          unfold wrote left6
          iintro ⟨%f, H⟩
          ihave H' := (Ring.owns_of_writes_tiledL VO6_6 S64x4.size) $$ H; iapply H'; ipureintro; sl_kernel_rfl
    · exact body_of_run6 V c t _ _ _ _ _ (kernelRun6_B c (grid6.coords t) (pt6 t) (ins6 V c t) (fun h => h0 ((hcond6_0 t).mp h)) (fun h => h1 ((hcond6_1 t).mp h)) _ _).2.2.2 (by sl_kernel_rfl) (by sl_kernel_rfl)
        ((PhiS6_castSucc V c t).trans (PhiS6_pos V c _ _ h0))
        (congrArg (·.2.1) (outsAt6_B V c t h0 h1)) (congrArg (·.2.2) (outsAt6_B V c t h0 h1))
        fun d => by rw [Dat.leavesExact_idle (dat6 V c) 6 t (idleAt6_6 t (fun h => h1 ((hcond6_1 t).mp h))) (noFlush6_6 t (fun h => h1 ((hcond6_1 t).mp h)))]; iintro H; iexists d; iexact H

theorem body_obligation6 : BodyObligation (dat6 (F := F) V c) (defs₀ (F := F)) Variants.none () Set.univ := fun t => by
  rw [bigSep_W6, bigSep_W6]
  exact sound_body6 V c t

theorem hin6 : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout6 : (dat6 V c).Φ (Fin.last cfg6.N) ⊢ Pipeline.ΦA spec6 c :=
  Phi_out6 V c _ (by rw [Fin.val_last]; have : cfg6.N = 20 := N_6; omega)

end Regions

end Cert.KernelIdeal.FrI

end
-- ==== Proof.FrI.RunW.lean ====
import proofs.«423718_j22230750724496_1_alg».proof.Proof.FrI.R0
import proofs.«423718_j22230750724496_1_alg».proof.Proof.FrI.R1
import proofs.«423718_j22230750724496_1_alg».proof.Proof.FrI.R2
import proofs.«423718_j22230750724496_1_alg».proof.Proof.FrI.R3
import proofs.«423718_j22230750724496_1_alg».proof.Proof.FrI.R4
import proofs.«423718_j22230750724496_1_alg».proof.Proof.FrI.R5
import proofs.«423718_j22230750724496_1_alg».proof.Proof.FrI.R6
import proofs.«423718_j22230750724496_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window-array overlay leaves alone every reference whose windows' entries are the underlying contents. -/
theorem withArrays_keep {gr W : Nat} (win : Fin W → Pipeline.WinSpec sig gr) (hinj : Function.Injective (Pipeline.arrRef win)) (c : Dev nD)
    (V : Valuation τ sig (Elt F)) (A : (w : Fin W) → Buf (Elt F) ((win w).arr.view.loc (c.tc : Thread nD τ))) (r : Ref sig .tc)
    (h : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw; exact (Pipeline.withArrays_arr win hinj c V A w).trans (h w rfl)
  · exact Pipeline.withArrays_of_ne win c V A r fun w e => hw ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c _ _ b hb
abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c _ _ b hb
abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N :=
  Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) :=
  Pipeline.withArrays_of_ne spec4 c _ _ b hb
abbrev V8 : (c : Dev nD) → (b : Ref sig .tc) → Buf (Elt F) ((c : Thread nD τ).loc b) := fun c b => W8 m ρ c b

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N :=
  Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) :=
  Pipeline.withArrays_of_ne spec5 c _ _ b hb
abbrev V10 : (c : Dev nD) → (b : Ref sig .tc) → Buf (Elt F) ((c : Thread nD τ).loc b) := fun c b => W10 m ρ c b

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N :=
  Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) :=
  Pipeline.withArrays_of_ne spec6 c _ _ b hb
abbrev V12 : (c : Dev nD) → (b : Ref sig .tc) → Buf (Elt F) ((c : Thread nD τ).loc b) := fun c b => W12 m ρ c b

/-- A reference that no host stretch writes and that no region names through an output window ends as launched. -/
theorem W12_kept (c : Dev nD) (r : Ref sig .tc)
    (h : (r ∉ hostOps0_W ∧ r ∉ hostOps1_W ∧ r ∉ hostOps3_W ∧ r ∉ hostOps5_W ∧ r ∉ hostOps6_W)
      ∧ (∀ w, Pipeline.arrRef spec0 w = r → (cfg0.win w).isOut = false)
      ∧ (∀ w, Pipeline.arrRef spec1 w = r → (cfg1.win w).isOut = false)
      ∧ (∀ w, Pipeline.arrRef spec2 w = r → (cfg2.win w).isOut = false)
      ∧ (∀ w, Pipeline.arrRef spec3 w = r → (cfg3.win w).isOut = false)
      ∧ (∀ w, Pipeline.arrRef spec4 w = r → (cfg4.win w).isOut = false)
      ∧ (∀ w, Pipeline.arrRef spec5 w = r → (cfg5.win w).isOut = false)
      ∧ (∀ w, Pipeline.arrRef spec6 w = r → (cfg6.win w).isOut = false)) :
    W12 m ρ c (Proc.devRef .tc r) = m ((c : Thread nD τ).loc r) :=
  have ⟨hh, h0, h1, h2, h3, h4, h5, h6⟩ := h
  (withArrays_keep spec6 launch6.win.arr_inj c _ _ r fun w e => ((dat6 (V11 m ρ) c).arrAt_in w (h6 w e) _).trans (A_eq6 (V11 m ρ) c w)).trans <|
  (StableHlo.after_of_writes_sub hostOps6 _ hostOps6_writes hh.2.2.2.2).trans <|
  (withArrays_keep spec5 launch5.win.arr_inj c _ _ r fun w e => ((dat5 (V9 m ρ) c).arrAt_in w (h5 w e) _).trans (A_eq5 (V9 m ρ) c w)).trans <|
  (StableHlo.after_of_writes_sub hostOps5 _ hostOps5_writes hh.2.2.2.1).trans <|
  (withArrays_keep spec4 launch4.win.arr_inj c _ _ r fun w e => ((dat4 (V7 m ρ) c).arrAt_in w (h4 w e) _).trans (A_eq4 (V7 m ρ) c w)).trans <|
  (withArrays_keep spec3 launch3.win.arr_inj c _ _ r fun w e => ((dat3 (V6 m ρ) c).arrAt_in w (h3 w e) _).trans (A_eq3 (V6 m ρ) c w)).trans <|
  (StableHlo.after_of_writes_sub hostOps3 _ hostOps3_writes hh.2.2.1).trans <|
  (withArrays_keep spec2 launch2.win.arr_inj c _ _ r fun w e => ((dat2 (V4 m ρ) c).arrAt_in w (h2 w e) _).trans (A_eq2 (V4 m ρ) c w)).trans <|
  (withArrays_keep spec1 launch1.win.arr_inj c _ _ r fun w e => ((dat1 (V3 m ρ) c).arrAt_in w (h1 w e) _).trans (A_eq1 (V3 m ρ) c w)).trans <|
  (StableHlo.after_of_writes_sub hostOps1 _ hostOps1_writes hh.2.1).trans <|
  (withArrays_keep spec0 launch0.win.arr_inj c _ _ r fun w e => ((dat0 (V1 m ρ) c).arrAt_in w (h0 w e) _).trans (A_eq0 (V1 m ρ) c w)).trans <|
  (StableHlo.after_of_writes_sub hostOps0 _ hostOps0_writes hh.1).trans rfl

end Cert.KernelIdeal.FrI

end
-- ==== Proof.FrI.Run.lean ====
import proofs.«423718_j22230750724496_1_alg».proof.Proof.FrI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

abbrev cf (p : Fin 7) : Cfg sig Λ₀ := Pipeline.pin (pcfgs (F := F)) adm p

set_option backward.isDefEq.respectTransparency.types false in
/-- Region `p` of the program: it leaves in its windows' arrays what its grid points wrote, and every other buffer as it found it. -/
def regOf (p : Fin 7) (lf : Pipeline.LaunchFacts (nD := nD) (τ := τ) cfgs p) (Wp : Dev nD → Valuation τ sig (Elt F))
    (hb : ∀ c, BodyObligation (pdats m ρ p c) (defs₀ (F := F)) 𝒱₀ () Set.univ)
    (hq : ∀ c w, (pdats m ρ p c).q w = fullShare)
    (hA : ∀ c w, (pdats m ρ p c).A w = Wp c (Proc.devRef .tc (Pipeline.arrRef (cf (F := F) p).spec w)))
    (howed : ∀ c t, (pdats m ρ p c).owed t = 0)
    (hrec : ∀ c t, (pdats m ρ p c).recorded t = Set.univ)
    (hin : ∀ c, Pipeline.ΦA (cf (F := F) p).spec c ⊢ (pdats m ρ p c).Φ 0)
    (hout : ∀ c, (pdats m ρ p c).Φ (Fin.last _) ⊢ Pipeline.ΦA (cf (F := F) p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig)
      (Pipeline.withArrays (cf (F := F) p).spec c (Wp c) fun w => (pdats m ρ p c).arrAt w (cf (F := F) p).N) ∗ R c)
  X c := iprop(∃ r, prngReg c r)
  Y c := iprop(∃ r, prngReg c r)
  Z c := Pipeline.unscopedRest (Ix := Unit) (Name := ℕ) (U := UR sig nD τ) (Lvl := ℕ) (cf (F := F) p).spec c (fun b => Wp c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wp c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr
      · ipureintro; intro x _; exact Or.inl (by rw [hrec]; exact Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wp c b)
      (fun b => Pipeline.withArrays (cf (F := F) p).spec c (Wp c) (fun w => (pdats m ρ p c).arrAt w (cf (F := F) p).N) b)
      ((pdats m ρ p c).arrAt · (cf (F := F) p).N)
      (fun w => (Pipeline.withArrays_arr (cf (F := F) p).spec lf.win.arr_inj c (Wp c) ((pdats m ρ p c).arrAt · (cf (F := F) p).N) w).symm)
      (fun b hb => Pipeline.withArrays_of_ne (cf (F := F) p).spec c (Wp c) ((pdats m ρ p c).arrAt · (cf (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (body_obligation0 (V1 m ρ)) (fun _ _ => rfl) (fun _ _ => rfl) (fun _ _ => rfl) (fun _ _ => rfl) (fun _ => .rfl) (fun _ => .rfl)
set_option backward.isDefEq.respectTransparency.types false in
def reg1 : Pipeline.RegionSeg (pcfgs (F := F)) adm (pdats m ρ) () defs₀ 𝒱₀ L lv 1 :=
  regOf m ρ 1 launch1 (W3 m ρ) (body_obligation1 (V3 m ρ)) (fun _ _ => rfl) (fun _ _ => rfl) (fun _ _ => rfl) (fun _ _ => rfl) (fun _ => .rfl) (fun _ => .rfl)
set_option backward.isDefEq.respectTransparency.types false in
def reg2 : Pipeline.RegionSeg (pcfgs (F := F)) adm (pdats m ρ) () defs₀ 𝒱₀ L lv 2 :=
  regOf m ρ 2 launch2 (W4 m ρ) (body_obligation2 (V4 m ρ)) (fun _ _ => rfl) (fun _ _ => rfl) (fun _ _ => rfl) (fun _ _ => rfl) (fun _ => .rfl) (fun _ => .rfl)
set_option backward.isDefEq.respectTransparency.types false in
def reg3 : Pipeline.RegionSeg (pcfgs (F := F)) adm (pdats m ρ) () defs₀ 𝒱₀ L lv 3 :=
  regOf m ρ 3 launch3 (W6 m ρ) (body_obligation3 (V6 m ρ)) (fun _ _ => rfl) (fun _ _ => rfl) (fun _ _ => rfl) (fun _ _ => rfl) (fun _ => .rfl) (fun _ => .rfl)
set_option backward.isDefEq.respectTransparency.types false in
def reg4 : Pipeline.RegionSeg (pcfgs (F := F)) adm (pdats m ρ) () defs₀ 𝒱₀ L lv 4 :=
  regOf m ρ 4 launch4 (W7 m ρ) (body_obligation4 (V7 m ρ)) (fun _ _ => rfl) (fun _ _ => rfl) (fun _ _ => rfl) (fun _ _ => rfl) (fun _ => .rfl) (fun _ => .rfl)
set_option backward.isDefEq.respectTransparency.types false in
def reg5 : Pipeline.RegionSeg (pcfgs (F := F)) adm (pdats m ρ) () defs₀ 𝒱₀ L lv 5 :=
  regOf m ρ 5 launch5 (W9 m ρ) (body_obligation5 (V9 m ρ)) (fun _ _ => rfl) (fun _ _ => rfl) (fun _ _ => rfl) (fun _ _ => rfl) (fun _ => .rfl) (fun _ => .rfl)
set_option backward.isDefEq.respectTransparency.types false in
def reg6 : Pipeline.RegionSeg (pcfgs (F := F)) adm (pdats m ρ) () defs₀ 𝒱₀ L lv 6 :=
  regOf m ρ 6 launch6 (W11 m ρ) (body_obligation6 (V11 m ρ)) (fun _ _ => rfl) (fun _ _ => rfl) (fun _ _ => rfl) (fun _ _ => rfl) (hin6 (V11 m ρ)) (hout6 (V11 m ρ))

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ), .region (reg2 m ρ),
    .host (hseg hostOps3 hostOps3_sub hostOps3_fresh (W5 m ρ)), .region (reg3 m ρ), .region (reg4 m ρ),
    .host (hseg hostOps5 hostOps5_sub hostOps5_fresh (W8 m ρ)), .region (reg5 m ρ),
    .host (hseg hostOps6 hostOps6_sub hostOps6_fresh (W10 m ρ)), .region (reg6 m ρ) ]
theorem main_run (c : Dev nD) : main (F := F) c = Pipeline.Seg.run (segs m ρ) := (main_chain c).trans (by chain_rfl)

set_option backward.isDefEq.respectTransparency.types false in
/-- Every weakly fair execution of @main from memory `m` ends, without a fault, with each core's buffers at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- The result array ends at `W12`'s contents, and every argument as launched. -/
theorem run_value : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  have k (c : Dev nD) (r : Ref sig .tc) (hu) (hk) {s : MemSt nD τ sig (Elt F)}
      (h : ∀ b ∈ Pipeline.ucRefs τ sig, s.mem (((c : Thread nD τ)).1, b) = W12 m ρ c b) :
      s.mem ((c.tc : Thread nD τ).loc r) = m ((c.tc : Thread nD τ).loc r) :=
    (h _ (mem_uc r hu)).trans (W12_kept m ρ c r hk)
  (θ_run defs _ _).mono (fun r h c =>
    ⟨h c _ (mem_uc main_v90 (by decide)),
     k c main_arg0 (by decide) (by decide) (h c),
     k c main_arg1 (by decide) (by decide) (h c),
     k c main_arg2 (by decide) (by decide) (h c),
     k c main_arg3 (by decide) (by decide) (h c),
     k c main_arg4 (by decide) (by decide) (h c),
     k c main_arg5 (by decide) (by decide) (h c),
     k c main_arg6 (by decide) (by decide) (h c),
     k c main_arg7 (by decide) (by decide) (h c),
     k c main_arg8 (by decide) (by decide) (h c),
     k c main_arg9 (by decide) (by decide) (h c),
     k c main_arg10 (by decide) (by decide) (h c),
     k c main_arg11 (by decide) (by decide) (h c),
     k c main_arg12 (by decide) (by decide) (h c)⟩) (run_all m ρ)

end Cert.KernelIdeal.FrI

end
-- ==== Proof.Val.TileLib.lean ====
import Idealize.ShloMosaic.Lib.Pipeline.Value
import Idealize.ShloMosaic.Lib.ValueLayout
import Idealize.ShloMosaic.Lib.StackMember

namespace Cert.KernelIdeal.Val

open Idealize.ShloMosaic Idealize.ShloMosaic.ValueIdx Idealize.ShloMosaic.StackMember

theorem zero_off : (![0, 0] : Fin 2 → ℕ) = fun _ => 0 := funext fun a => by fin_cases a <;> rfl

/-- Block indices of a row-tiled region at one grid point: the first operand's and the result's block at `(n, 0)`, the second operand's at `(0, 0)`. -/
abbrev RowIdx (n : ℕ) (i0 i1 i2 : Fin 2 → ℕ) : Prop :=
  (i0 0 = n ∧ i0 1 = 0) ∧ (i1 0 = 0 ∧ i1 1 = 0) ∧ i2 0 = n ∧ i2 1 = 0

/-- `e` embeds the block with block index `idx`: each coordinate is the index times the block's extent plus the block's coordinate. -/
abbrev AtBlock {r c m c' : ℕ} (idx : Fin 2 → ℕ) (e : (⟨2, ![r, c]⟩ : Shape).Idx → (⟨2, ![m, c']⟩ : Shape).Idx) : Prop :=
  ∀ x a, (e x a).val = idx a * ![r, c] a + (x a).val

/-- `e` places a block of `r` rows at rows `o … o + r - 1` of an array of `m` rows, columns kept. -/
def RowTile {r m c : ℕ} (o : ℕ) (e : (⟨2, ![r, c]⟩ : Shape).Idx → (⟨2, ![m, c]⟩ : Shape).Idx) : Prop :=
  ∀ x, (e x 0).val = o + (x 0).val ∧ (e x 1).val = (x 1).val

theorem RowTile.of_index {r m c n : ℕ} {e : (⟨2, ![r, c]⟩ : Shape).Idx → (⟨2, ![m, c]⟩ : Shape).Idx} {idx : Fin 2 → ℕ}
    (h0 : idx 0 = n) (h1 : idx 1 = 0) (h : AtBlock idx e) : RowTile (n * r) e :=
  fun x => ⟨by rw [h, h0]; rfl, by rw [h, h1, Nat.zero_mul, Nat.zero_add]⟩

/-- A row tile of a matrix product is the product of the row tile with the whole right factor. -/
theorem matmul_rowTile {R M K N n : ℕ} {φ₁ φ₂ ψ₁ ψ₂ : FTy} (p p' : Option ContractPrecision)
    (A : FVec Ideal ⟨2, ![M, K]⟩ ψ₁) (B : FVec Ideal ⟨2, ![K, N]⟩ ψ₂)
    {A' : FVec Ideal ⟨2, ![R, K]⟩ φ₁} {B' : FVec Ideal ⟨2, ![K, N]⟩ φ₂} {i0 i1 i2 : Fin 2 → ℕ}
    {e0 : (⟨2, ![R, K]⟩ : Shape).Idx → (⟨2, ![M, K]⟩ : Shape).Idx} {e1 : (⟨2, ![K, N]⟩ : Shape).Idx → (⟨2, ![K, N]⟩ : Shape).Idx}
    {e2 : (⟨2, ![R, N]⟩ : Shape).Idx → (⟨2, ![M, N]⟩ : Shape).Idx}
    (hI : RowIdx n i0 i1 i2) (h0 : AtBlock i0 e0) (h1 : AtBlock i1 e1) (h2 : AtBlock i2 e2)
    (hA : ∀ x, A' x = A (e0 x)) (hB : ∀ x, B' x = B (e1 x)) (j : (⟨2, ![R, N]⟩ : Shape).Idx) :
    matmul (DotDims.plain R K N) p A' B' (constant _ .f32 0x00000000#32) j
      = Host.dotGeneral (DotDims.plain M K N) p' A B (e2 j) := by
  obtain ⟨⟨a0, a1⟩, ⟨b0, b1⟩, c0, c1⟩ := hI
  have h0 := RowTile.of_index a0 a1 h0
  have h1 : RowTile 0 e1 := Nat.zero_mul K ▸ RowTile.of_index b0 b1 h1
  have hi := RowTile.of_index c0 c1 h2 j
  generalize e2 j = i at hi ⊢
  obtain ⟨a, b, rfl⟩ : ∃ a b, j = ix2 a b := ⟨j 0, j 1, eq_ix2 j⟩
  obtain ⟨r, t, rfl⟩ : ∃ (r : Fin M) (t : Fin N), i = ix2 r t := ⟨i 0, i 1, eq_ix2 i⟩
  rw [matmul_zero_eq_dotGeneral, dotGeneral_plain_apply, dotGeneral_plain_apply]
  refine Finset.sum_congr rfl fun k _ => ?_
  rw [hA, hB, show e0 (ix2 a k) = ix2 r k from Shape.idx_ext₂ ((h0 _).1.trans hi.1.symm) (h0 _).2,
    show e1 (ix2 k b) = ix2 k t from Shape.idx_ext₂ ((h1 _).1.trans (Nat.zero_add _)) ((h1 _).2.trans hi.2.symm)]

variable {F : FTy → Type} [FloatOps F]

/-- A row tile of "one row added to every row" adds the row to the tile. -/
theorem addRow_rowTile {R M C n : ℕ} {φ : FTy} (a : FVec F ⟨2, ![M, C]⟩ φ) (b : FVec F ⟨2, ![1, C]⟩ φ)
    {a' : FVec F ⟨2, ![R, C]⟩ φ} {b' : FVec F ⟨2, ![1, C]⟩ φ} {i0 i1 i2 : Fin 2 → ℕ}
    {e0 e2 : (⟨2, ![R, C]⟩ : Shape).Idx → (⟨2, ![M, C]⟩ : Shape).Idx} {e1 : (⟨2, ![1, C]⟩ : Shape).Idx → (⟨2, ![1, C]⟩ : Shape).Idx}
    (hI : RowIdx n i0 i1 i2) (h0 : AtBlock i0 e0) (h1 : AtBlock i1 e1) (h2 : AtBlock i2 e2)
    (ha : ∀ x, a' x = a (e0 x)) (hb : ∀ x, b' x = b (e1 x))
    {hb' : (⟨2, ![1, C]⟩ : Shape).Broadcasts ⟨2, ![R, C]⟩} {hbc : (⟨2, ![1, C]⟩ : Shape).BroadcastsInDim ⟨2, ![M, C]⟩ ![0, 1]}
    (j : (⟨2, ![R, C]⟩ : Shape).Idx) :
    addf a' (broadcastTo ⟨2, ![R, C]⟩ b' hb') j = addf a (broadcastInDim ⟨2, ![M, C]⟩ ![0, 1] hbc b) (e2 j) := by
  obtain ⟨⟨a0, a1⟩, ⟨b0, b1⟩, c0, c1⟩ := hI
  have h0 := RowTile.of_index a0 a1 h0
  have h1 : RowTile 0 e1 := Nat.zero_mul 1 ▸ RowTile.of_index b0 b1 h1
  have hi := RowTile.of_index c0 c1 h2 j
  generalize e2 j = i at hi ⊢
  obtain ⟨p, q, rfl⟩ : ∃ p q, j = ix2 p q := ⟨j 0, j 1, eq_ix2 j⟩
  obtain ⟨r, t, rfl⟩ : ∃ (r : Fin M) (t : Fin C), i = ix2 r t := ⟨i 0, i 1, eq_ix2 i⟩
  refine congrArg₂ FloatOps.addf ((ha _).trans (congrArg a (Shape.idx_ext₂ ((h0 _).1.trans hi.1.symm) ((h0 _).2.trans hi.2.symm)))) ?_
  rw [broadcastTo_1b_ab_apply, broadcastInDim_oneRow_apply, hb]
  exact congrArg b (Shape.idx_ext₂ ((h1 _).1.trans (Nat.zero_add _)) ((h1 _).2.trans hi.2.symm))

/-- The rectifier against the zero splat is the rectifier against the broadcast zero constant. -/
theorem relu_congr {s t z : Shape} {dims : Fin z.rank → Fin t.rank} {X : FVec F s .f32} {Y : FVec F t .f32}
    {hsc : z.BroadcastsInDim t dims} {j : s.Idx} {i : t.Idx} (h : X j = Y i) :
    maximumf X (broadcast s (Scalar.ofBits .f32 0x00000000#32)) j
      = maximumf Y (broadcastInDim t dims hsc (constant z .f32 0x00000000#32)) i := by
  rw [broadcastInDim_constant]
  exact congrArg (FloatOps.maximumf · _) h

/-- Row `i 0` lies in the tile numbered `i 0 / r`: tiles of `r` rows with block index `(t, 0)` cover `n * r` rows. -/
theorem exists_rowTile {n r m c : ℕ} (hr : 0 < r) (hm : m ≤ n * r) {i0 i1 i2 : Fin n → Fin 2 → ℕ}
    (h : ∀ t : Fin n, RowIdx t.val (i0 t) (i1 t) (i2 t)) (i : (⟨2, ![m, c]⟩ : Shape).Idx) :
    ∃ t : Fin n, ∀ a : Fin 2, i2 t a * ![r, c] a ≤ (i a).val ∧ (i a).val < i2 t a * ![r, c] a + ![r, c] a := by
  have hi : (i 0).val < r * n := Nat.mul_comm n r ▸ Nat.lt_of_lt_of_le (i 0).isLt hm
  refine ⟨⟨(i 0).val / r, Nat.div_lt_of_lt_mul hi⟩, Fin.forall_fin_two.2 ⟨?_, ?_⟩⟩
  · rw [(h _).2.2.1]; exact ⟨Nat.div_mul_le_self _ _, Nat.lt_div_mul_add hr⟩
  · rw [(h _).2.2.2, Nat.zero_mul, Nat.zero_add]; exact ⟨Nat.zero_le _, (i 1).isLt⟩

end Cert.KernelIdeal.Val
-- ==== Proof.Val.Mat0.lean ====
import proofs.«423718_j22230750724496_1_alg».proof.Proof.FrI.R0
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable (V : (c : Dev nD) → (b : Ref sig .tc) → Buf (Elt Ideal) ((c : Thread nD τ).loc b))

theorem idx_facts0 : ∀ t : Fin cfg0.N, RowIdx t.val (win0_0.index t) (win0_1.index t) (win0_2.index t) :=
  (by decide +kernel : ∀ t : Fin grid0.N, _)

/-- Each point writes its row tile of the product, and the twenty tiles cover the rows. -/
theorem arr_out0 (c : Dev nD) :
    (dat0 (F := Ideal) V c).arrAt 2 cfg0.N
      = Host.dotGeneral (F := Ideal) (φ₁ := .f32) (φ₂ := .f32) Cert.ReferenceIdeal.dot_S100000x64_S64x128_S100000x128_1_0_0_1_n_n none (V c main_arg0) (V c main_arg1) := by
  refine (dat0 V c).arrAt_eq_of_cover 2 _ (fun t _ => ?_) fun i => ?_
  · show (cfg0.win 2).cut (grid0.coords t) ((dat0 V c).after 2 t) = _
    rw [after0_2]
    unfold out0_2 k0_pay1
    rw [View.canon_unit_zero zero_off]
    simp only [View.ld_unit_zero (S := S5000x64) zero_off, View.ld_unit_zero (S := S64x128) zero_off]
    funext j
    exact matmul_rowTile none none (V c main_arg0) (V c main_arg1) (idx_facts0 t) (win0_0.rect_emb_val t) (win0_1.rect_emb_val t) (win0_2.rect_emb_val t) (fun _ => rfl) (fun _ => rfl) j
  · obtain ⟨t, ht⟩ := exists_rowTile (r := 5000) (by decide) (by decide) idx_facts0 i
    refine ⟨t, flush0_2 t, ?_⟩
    show i ∈ ((View.whole main_v27).slice (win0_2.rect t)).set
    rw [View.set_slice_whole, Rect.mem_set_unit]
    exact ht

end Cert.KernelIdeal.Val
-- ==== Proof.Val.Mat2.lean ====
import proofs.«423718_j22230750724496_1_alg».proof.Proof.FrI.R2
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable (V : (c : Dev nD) → (b : Ref sig .tc) → Buf (Elt Ideal) ((c : Thread nD τ).loc b))

theorem idx_facts2 : ∀ t : Fin cfg2.N, RowIdx t.val (win2_0.index t) (win2_1.index t) (win2_2.index t) :=
  (by decide +kernel : ∀ t : Fin grid2.N, _)

/-- Each point writes its row tile of the product, and the twenty tiles cover the rows. -/
theorem arr_out2 (c : Dev nD) :
    (dat2 (F := Ideal) V c).arrAt 2 cfg2.N
      = Host.dotGeneral (F := Ideal) (φ₁ := .f32) (φ₂ := .f32) Cert.ReferenceIdeal.dot_S100000x128_S128x128_S100000x128_1_0_0_1_n_n none (V c main_v46) (V c main_arg3) := by
  refine (dat2 V c).arrAt_eq_of_cover 2 _ (fun t _ => ?_) fun i => ?_
  · show (cfg2.win 2).cut (grid2.coords t) ((dat2 V c).after 2 t) = _
    rw [after2_2]
    unfold out2_2 k2_pay1
    rw [View.canon_unit_zero zero_off]
    simp only [View.ld_unit_zero (S := S5000x128) zero_off, View.ld_unit_zero (S := S128x128) zero_off, shapeCast_self]
    funext j
    exact matmul_rowTile none none (V c main_v46) (V c main_arg3) (idx_facts2 t) (win2_0.rect_emb_val t) (win2_1.rect_emb_val t) (win2_2.rect_emb_val t) (fun _ => rfl) (fun _ => rfl) j
  · obtain ⟨t, ht⟩ := exists_rowTile (r := 5000) (by decide) (by decide) idx_facts2 i
    refine ⟨t, flush2_2 t, ?_⟩
    show i ∈ ((View.whole main_v47).slice (win2_2.rect t)).set
    rw [View.set_slice_whole, Rect.mem_set_unit]
    exact ht

end Cert.KernelIdeal.Val
-- ==== Proof.Val.Mat4.lean ====
import proofs.«423718_j22230750724496_1_alg».proof.Proof.FrI.R4
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable (V : (c : Dev nD) → (b : Ref sig .tc) → Buf (Elt Ideal) ((c : Thread nD τ).loc b))

theorem idx_facts4 : ∀ t : Fin cfg4.N, RowIdx t.val (win4_0.index t) (win4_1.index t) (win4_2.index t) :=
  (by decide +kernel : ∀ t : Fin grid4.N, _)

/-- Each point writes its row tile of the product, and the twenty tiles cover the rows. -/
theorem arr_out4 (c : Dev nD) :
    (dat4 (F := Ideal) V c).arrAt 2 cfg4.N
      = Host.dotGeneral (F := Ideal) (φ₁ := .f32) (φ₂ := .f32) Cert.ReferenceIdeal.dot_S100000x128_S128x128_S100000x128_1_0_0_1_n_n none (V c main_v66) (V c main_arg5) := by
  refine (dat4 V c).arrAt_eq_of_cover 2 _ (fun t _ => ?_) fun i => ?_
  · show (cfg4.win 2).cut (grid4.coords t) ((dat4 V c).after 2 t) = _
    rw [after4_2]
    unfold out4_2 k4_pay1
    rw [View.canon_unit_zero zero_off]
    simp only [View.ld_unit_zero (S := S5000x128) zero_off, View.ld_unit_zero (S := S128x128) zero_off, shapeCast_self]
    funext j
    exact matmul_rowTile none none (V c main_v66) (V c main_arg5) (idx_facts4 t) (win4_0.rect_emb_val t) (win4_1.rect_emb_val t) (win4_2.rect_emb_val t) (fun _ => rfl) (fun _ => rfl) j
  · obtain ⟨t, ht⟩ := exists_rowTile (r := 5000) (by decide) (by decide) idx_facts4 i
    refine ⟨t, flush4_2 t, ?_⟩
    show i ∈ ((View.whole main_v67).slice (win4_2.rect t)).set
    rw [View.set_slice_whole, Rect.mem_set_unit]
    exact ht

end Cert.KernelIdeal.Val
-- ==== Proof.Val.Bias1.lean ====
import proofs.«423718_j22230750724496_1_alg».proof.Proof.FrI.R1
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable {F : FTy → Type} [FloatOps F]

variable (V : (c : Dev nD) → (b : Ref sig .tc) → Buf (Elt F) ((c : Thread nD τ).loc b))

theorem idx_facts1 : ∀ t : Fin cfg1.N, RowIdx t.val (win1_0.index t) (win1_1.index t) (win1_2.index t) :=
  (by decide +kernel : ∀ t : Fin grid1.N, _)

/-- Each point writes its row tile of the whole-array result, and the twenty tiles cover the rows. -/
theorem arr_out1 (c : Dev nD) : (dat1 (F := F) V c).arrAt 2 cfg1.N
    = maximumf (F := F) (addf (V c main_v44) (broadcastInDim S100000x128 ![0, 1] Cert.ReferenceIdeal.Facts₀.bcast_S1x128_S100000x128_0_1 (V c main_v45)))
        (broadcastInDim S100000x128 ![] bcast_S_S100000x128 (constant (F := F) S_ .f32 0x00000000#32)) := by
  refine (dat1 V c).arrAt_eq_of_cover 2 _ (fun t _ => ?_) fun i => ?_
  · show (cfg1.win 2).cut (grid1.coords t) ((dat1 V c).after 2 t) = _
    rw [after1_2]
    unfold out1_2 k1_pay1
    rw [View.canon_unit_zero zero_off]
    simp only [View.ld_unit_zero (S := S5000x128) zero_off, View.ld_unit_zero (S := S1x128) zero_off, shapeCast_self]
    funext j
    exact relu_congr (addRow_rowTile (V c main_v44) (V c main_v45) (idx_facts1 t) (win1_0.rect_emb_val t) (win1_1.rect_emb_val t) (win1_2.rect_emb_val t) (fun _ => rfl) (fun _ => rfl) j)
  · obtain ⟨t, ht⟩ := exists_rowTile (r := 5000) (by decide) (by decide) idx_facts1 i
    refine ⟨t, flush1_2 t, ?_⟩
    show i ∈ ((View.whole main_v46).slice (win1_2.rect t)).set
    rw [View.set_slice_whole, Rect.mem_set_unit]
    exact ht

end Cert.KernelIdeal.Val
-- ==== Proof.Val.Bias3.lean ====
import proofs.«423718_j22230750724496_1_alg».proof.Proof.FrI.R3
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable {F : FTy → Type} [FloatOps F]

variable (V : (c : Dev nD) → (b : Ref sig .tc) → Buf (Elt F) ((c : Thread nD τ).loc b))

theorem idx_facts3 : ∀ t : Fin cfg3.N, RowIdx t.val (win3_0.index t) (win3_1.index t) (win3_2.index t) :=
  (by decide +kernel : ∀ t : Fin grid3.N, _)

/-- Each point writes its row tile of the whole-array result, and the twenty tiles cover the rows. -/
theorem arr_out3 (c : Dev nD) : (dat3 (F := F) V c).arrAt 2 cfg3.N
    = maximumf (F := F) (addf (V c main_v64) (broadcastInDim S100000x128 ![0, 1] Cert.ReferenceIdeal.Facts₀.bcast_S1x128_S100000x128_0_1 (V c main_v65)))
        (broadcastInDim S100000x128 ![] bcast_S_S100000x128 (constant (F := F) S_ .f32 0x00000000#32)) := by
  refine (dat3 V c).arrAt_eq_of_cover 2 _ (fun t _ => ?_) fun i => ?_
  · show (cfg3.win 2).cut (grid3.coords t) ((dat3 V c).after 2 t) = _
    rw [after3_2]
    unfold out3_2 k3_pay1
    rw [View.canon_unit_zero zero_off]
    simp only [View.ld_unit_zero (S := S5000x128) zero_off, View.ld_unit_zero (S := S1x128) zero_off, shapeCast_self]
    funext j
    exact relu_congr (addRow_rowTile (V c main_v64) (V c main_v65) (idx_facts3 t) (win3_0.rect_emb_val t) (win3_1.rect_emb_val t) (win3_2.rect_emb_val t) (fun _ => rfl) (fun _ => rfl) j)
  · obtain ⟨t, ht⟩ := exists_rowTile (r := 5000) (by decide) (by decide) idx_facts3 i
    refine ⟨t, flush3_2 t, ?_⟩
    show i ∈ ((View.whole main_v66).slice (win3_2.rect t)).set
    rw [View.set_slice_whole, Rect.mem_set_unit]
    exact ht

end Cert.KernelIdeal.Val
-- ==== Proof.Val.Bias5.lean ====
import proofs.«423718_j22230750724496_1_alg».proof.Proof.FrI.R5
import proofs.«423718_j22230750724496_1_alg».proof.Proof.Gen.ReferenceIdeal
import proofs.«423718_j22230750724496_1_alg».proof.Proof.Val.TileLib

namespace Cert.KernelIdeal.Val

open Cert.KernelIdeal Cert.KernelIdeal.Gen Cert.KernelIdeal.FrI
open Idealize.ShloMosaic Idealize.ShloMosaic.TcCoe

variable {F : FTy → Type} [FloatOps F]

variable (V : (c : Dev nD) → (b : Ref sig .tc) → Buf (Elt F) ((c : Thread nD τ).loc b))

theorem idx_facts5 : ∀ t : Fin cfg5.N, RowIdx t.val (win5_0.index t) (win5_1.index t) (win5_2.index t) :=
  (by decide +kernel : ∀ t : Fin grid5.N, _)

/-- Each point writes its row tile of the whole-array result, and the twenty tiles cover the rows. -/
theorem arr_out5 (c : Dev nD) : (dat5 (F := F) V c).arrAt 2 cfg5.N
    = addf (F := F) (V c main_v84) (broadcastInDim S100000x128 ![0, 1] Cert.ReferenceIdeal.Facts₀.bcast_S1x128_S100000x128_0_1 (V c main_v85)) := by
  refine (dat5 V c).arrAt_eq_of_cover 2 _ (fun t _ => ?_) fun i => ?_
  · show (cfg5.win 2).cut (grid5.coords t) ((dat5 V c).after 2 t) = _
    rw [after5_2]
    unfold out5_2 k5_pay1
    rw [View.canon_unit_zero zero_off]
    simp only [View.ld_unit_zero (S := S5000x128) zero_off, View.ld_unit_zero (S := S1x128) zero_off, shapeCast_self]
    funext j
    exact addRow_rowTile (V c main_v84) (V c main_v85) (idx_facts5 t) (win5_0.rect_emb_val t) (win5_1.rect_emb_val t) (win5_2.rect_emb_val t) (fun _ => rfl) (fun _ => rfl) j
  · obtain ⟨t, ht⟩ := exists_rowTile (r := 5000) (by decide) (by decide) idx_facts5 i
    refine ⟨t, flush5_2 t, ?_⟩
    show i ∈ ((View.whole main_v86).slice (win5_2.rect t)).set
    rw [View.set_slice_whole, Rect.mem_set_unit]
    exact ht

end Cert.KernelIdeal.Val
-- ==== Proof.Val.Reshapes.lean ====
import proofs.«423718_j22230750724496_1_alg».proof.Proof.Gen.KernelIdeal
import proofs.«423718_j22230750724496_1_alg».proof.Proof.Gen.ReferenceIdeal
import Idealize.ShloMosaic.Lib.Pipeline.Value
import Idealize.ShloMosaic.Lib.ValueIdx

namespace Cert.KernelIdeal.Val

open Cert.KernelIdeal Cert.KernelIdeal.Gen
open Idealize.ShloMosaic
open Idealize.ShloMosaic.ValueIdx

variable {α : Type}

/-- A vector recast as a matrix whose axis `d` carries it (`hpos`: the row-major position is coordinate `d`) is the vector broadcast along `d`. -/
theorem shapeCast_eq_broadcastInDim {a b : ℕ} (d : Fin 2) (x : (⟨1, ![![a, b] d]⟩ : Shape).Idx → α)
    (h : (⟨1, ![![a, b] d]⟩ : Shape).ShapeCasts ⟨2, ![a, b]⟩) (hb : (⟨1, ![![a, b] d]⟩ : Shape).BroadcastsInDim ⟨2, ![a, b]⟩ ![d])
    (hpos : ∀ i : (⟨2, ![a, b]⟩ : Shape).Idx, (i d).val = (i 0).val * b + (i 1).val) :
    shapeCast ⟨2, ![a, b]⟩ x h = broadcastInDim ⟨2, ![a, b]⟩ ![d] hb x := by
  funext i
  refine (shapeCast_apply x h i (ix1 (i d)) ?_).trans (broadcastInDim_apply ![d] hb x i (ix1 (i d)) fun c => ?_).symm
  · rw [Shape.rowMajor_val_two, Shape.rowMajor_val_one]
    exact hpos i
  · match c with
    | ⟨0, _⟩ =>
      show (i d).val = if ![a, b] d = 1 then 0 else (i d).val
      split
      · exact Nat.lt_one_iff.1 (Nat.lt_of_lt_of_eq (i d).isLt ‹_›)
      · rfl

theorem row_of_vec128 (x : S128.Idx → α) :
    shapeCast S1x128 x shapeCasts_S128_S1x128
      = broadcastInDim S1x128 ![1] Cert.ReferenceIdeal.Facts₀.bcast_S128_S1x128_1 x :=
  shapeCast_eq_broadcastInDim 1 x _ _ fun i => by have := idx2_lt0 i; omega

theorem row_of_vec4 (x : S4.Idx → α) :
    shapeCast S1x4 x shapeCasts_S4_S1x4
      = broadcastInDim S1x4 ![1] Cert.ReferenceIdeal.Facts₀.bcast_S4_S1x4_1 x :=
  shapeCast_eq_broadcastInDim 1 x _ _ fun i => by have := idx2_lt0 i; omega

theorem col_of_vec100000 (x : S100000.Idx → α) :
    shapeCast S100000x1 x shapeCasts_S100000_S100000x1
      = broadcastInDim S100000x1 ![0] bcast_S100000_S100000x1_0 x :=
  shapeCast_eq_broadcastInDim 0 x _ _ fun i => by have := idx2_lt1 i; omega

end Cert.KernelIdeal.Val
-- ==== Proof.FrI.Tiles.lean ====
import proofs.«423718_j22230750724496_1_alg».proof.KernelIdeal
import Idealize.ShloMosaic.Lib.ValueIdx

noncomputable section

namespace Cert.KernelIdeal.FrI

open Cert.KernelIdeal
open Idealize.ShloMosaic Idealize.ShloMosaic.ValueIdx

variable {F : FTy → Type}

-- Row `r` of tile `n` (taken modulo 20) of the 100000 rows, cut into 20 tiles of 5000.
def tileRow (n : ℕ) (r : Fin 5000) : Fin 100000 := ⟨5000 * (n % 20) + r.val, by have := Nat.mod_lt n (by decide : 20 > 0); omega⟩

def tileX (h : Vec F S100000x128 .f32) (n : ℕ) : Vec F S5000x128 .f32 :=
  fun y => h (ix2 (tileRow n (y 0)) (y 1))

def tileB (b : Vec F S100000x1 .i32) (n : ℕ) : Vec F S5000x1 .i32 :=
  fun y => b (ix2 (tileRow n (y 0)) (y 1))

end Cert.KernelIdeal.FrI

end
-- ==== Proof.FrI.PoolSpec.lean ====
import proofs.«423718_j22230750724496_1_alg».proof.Proof.Gen.KernelIdeal.Skeleton
import Idealize.ShloMosaic.Lib.Pipeline.FrameBody

noncomputable section

namespace Cert.KernelIdeal.FrI

open Cert.KernelIdeal Cert.KernelIdeal.Gen
open Idealize.ShloMosaic

variable {F : FTy → Type} [FloatOps F]

abbrev r6_top : Rect S128x128 := Rect.unit (s := S128x128) ![0, 0] S64x128.size inb_S128x128_S64x128_0_0

def poolSum (xb : ℕ → Vec F S5000x128 .f32) (bb : ℕ → Vec F S5000x1 .i32) : ℕ → Vec F S128x128 .f32
  | 0 => k6_pay4 (xb 0) (bb 0) k6_pay1
  | n + 1 => k6_pay4 (xb (n + 1)) (bb (n + 1)) (poolSum xb bb n)

def poolCnt (bb : ℕ → Vec F S5000x1 .i32) : ℕ → Vec F S128x128 .f32
  | 0 => k6_pay5 (bb 0) k6_pay2
  | n + 1 => k6_pay5 (bb (n + 1)) (poolCnt bb n)

-- The region's result: the two dense layers on the quotient of the accumulators the twentieth point completes.
def poolOut (xb : ℕ → Vec F S5000x128 .f32) (bb : ℕ → Vec F S5000x1 .i32) (fw1 : Vec F S128x128 .f32) (fb1 : Vec F S1x128 .f32)
    (fw2 : Vec F S128x4 .f32) (fb2 : Vec F S1x4 .f32) : Vec F S64x4 .f32 :=
  k6_pay6 (View.ld (poolSum xb bb 19) r6_top) (View.ld (poolCnt bb 19) r6_top) fw1 fb1 fw2 fb2

end Cert.KernelIdeal.FrI

end
-- ==== Proof.Val.PoolGlue.lean ====
import proofs.«423718_j22230750724496_1_alg».proof.Proof.FrI.R6Runs
import proofs.«423718_j22230750724496_1_alg».proof.Proof.FrI.Tiles
import proofs.«423718_j22230750724496_1_alg».proof.Proof.FrI.PoolSpec
import Idealize.ShloMosaic.Lib.Pipeline.Value
import Idealize.ShloMosaic.Lib.ValueIdx

noncomputable section

namespace Cert.KernelIdeal.Val

open Cert.KernelIdeal Cert.KernelIdeal.Gen Cert.KernelIdeal.FrI
open Idealize.ShloMosaic Idealize.ShloMosaic.TcCoe Idealize.ShloMosaic.ValueIdx
open Idealize.SL.Sem
open Idealize.ShloMosaic.Pipeline (Dat)

variable {F : FTy → Type} [FloatOps F]

theorem idx6_tile : ∀ t : Fin cfg6.N, (win6_0.index t (0 : Fin 2) = t.val ∧ win6_0.index t (1 : Fin 2) = 0)
    ∧ win6_1.index t (0 : Fin 2) = t.val ∧ win6_1.index t (1 : Fin 2) = 0 :=
  (by decide +kernel : ∀ t : Fin grid6.N, _)

theorem idx6_whole : ∀ (t : Fin cfg6.N) (a : Fin 2), win6_2.index t a = 0 ∧ win6_3.index t a = 0 ∧ win6_4.index t a = 0
    ∧ win6_5.index t a = 0 ∧ win6_6.index t a = 0 :=
  (by decide +kernel : ∀ (t : Fin grid6.N) (a : Fin 2), _)

section Blocks
variable (V : (c : Dev nD) → (b : Ref sig .tc) → Buf (Elt F) ((c : Thread nD τ).loc b))

theorem iblk6_0_eq (c : Dev nD) (t : Fin cfg6.N) :
    (iblk6 V c 0 t : Vec F S5000x128 .f32) = tileX (V c main_v86) t.val := by
  obtain ⟨⟨e0, e1⟩, -⟩ := idx6_tile t
  have ht := t.isLt
  have hN : cfg6.N = 20 := N_6
  refine funext fun y => (View.read_apply _ y).trans (congrArg (V c main_v86) (funext fun a => Fin.ext ?_))
  match a with
  | ⟨0, _⟩ => exact (win6_0.rect_emb_val t y 0).trans (by rw [e0]; show t.val * 5000 + (y 0).val = 5000 * (t.val % 20) + (y 0).val; omega)
  | ⟨1, _⟩ => exact win6_0.rect_emb_val_of_index_zero t 1 e1 y

theorem iblk6_1_eq (c : Dev nD) (t : Fin cfg6.N) :
    (iblk6 V c 1 t : Vec F S5000x1 .i32) = tileB (V c main_v87) t.val := by
  obtain ⟨-, e0, e1⟩ := idx6_tile t
  have ht := t.isLt
  have hN : cfg6.N = 20 := N_6
  refine funext fun y => (View.read_apply _ y).trans (congrArg (V c main_v87) (funext fun a => Fin.ext ?_))
  match a with
  | ⟨0, _⟩ => exact (win6_1.rect_emb_val t y 0).trans (by rw [e0]; show t.val * 5000 + (y 0).val = 5000 * (t.val % 20) + (y 0).val; omega)
  | ⟨1, _⟩ => exact win6_1.rect_emb_val_of_index_zero t 1 e1 y

theorem iblk6_2_eq (c : Dev nD) (t : Fin cfg6.N) : (iblk6 V c 2 t : Vec F S128x128 .f32) = V c main_arg7 :=
  funext fun y => (View.read_apply _ y).trans
    (congrArg (V c main_arg7) (funext fun a => Fin.ext (win6_2.rect_emb_val_of_index_zero t a (idx6_whole t a).1 y)))

theorem iblk6_3_eq (c : Dev nD) (t : Fin cfg6.N) : (iblk6 V c 3 t : Vec F S1x128 .f32) = V c main_v88 :=
  funext fun y => (View.read_apply _ y).trans
    (congrArg (V c main_v88) (funext fun a => Fin.ext (win6_3.rect_emb_val_of_index_zero t a (idx6_whole t a).2.1 y)))

theorem iblk6_4_eq (c : Dev nD) (t : Fin cfg6.N) : (iblk6 V c 4 t : Vec F S128x4 .f32) = V c main_arg9 :=
  funext fun y => (View.read_apply _ y).trans
    (congrArg (V c main_arg9) (funext fun a => Fin.ext (win6_4.rect_emb_val_of_index_zero t a (idx6_whole t a).2.2.1 y)))

theorem iblk6_5_eq (c : Dev nD) (t : Fin cfg6.N) : (iblk6 V c 5 t : Vec F S1x4 .f32) = V c main_v89 :=
  funext fun y => (View.read_apply _ y).trans
    (congrArg (V c main_v89) (funext fun a => Fin.ext (win6_5.rect_emb_val_of_index_zero t a (idx6_whole t a).2.2.2.1 y)))

end Blocks

theorem arrAt6_of_last {c : Dev nD} (dat : Dat τ (Elt F) Unit ℕ (UR sig nD τ) ℕ cfg6 c) (X : Vec F S64x4 .f32)
    (h19 : 19 < cfg6.N) (hlast : dat.after 6 ⟨19, h19⟩ = X) : dat.arrAt 6 cfg6.N = X := by
  have hemb : ∀ y, ((cfg6.win 6).blk ⟨19, h19⟩).view.emb y = y := fun y =>
    funext fun a => Fin.ext (win6_6.rect_emb_val_of_index_zero _ a (idx6_whole _ a).2.2.2.2 y)
  refine dat.arrAt_eq_of_cover 6 X (fun t hf => ?_) (fun i => ⟨⟨19, h19⟩, (flush6_6 _).mpr rfl, ?_⟩)
  · obtain rfl : t = ⟨19, h19⟩ := Fin.ext (show t.val = 19 by
      have := (flush6_6 t).mp hf; have := t.isLt; have : cfg6.N = 20 := N_6; omega)
    show (cfg6.win 6).cut (grid6.coords ⟨19, h19⟩) (dat.after 6 ⟨19, h19⟩) = _
    rw [hlast]
    funext y
    rw [View.read_apply]
    exact (congrArg X (hemb y)).symm
  · exact Finset.mem_map.mpr ⟨i, Finset.mem_univ _, hemb i⟩

section Recurrence
variable (V : (c : Dev nD) → (b : Ref sig .tc) → Buf (Elt F) ((c : Thread nD τ).loc b))

-- By induction on the point the two accumulators are the recurrence over the tiles.
theorem arr_out6_of (c : Dev nD) (dat : Dat τ (Elt F) Unit ℕ (UR sig nD τ) ℕ cfg6 c)
    (S C : (n : ℕ) → n < cfg6.N → Vec F S128x128 .f32)
    (hS0 : ∀ h : 0 < cfg6.N, S 0 h = k6_pay4 (iblk6 V c 0 ⟨0, h⟩) (iblk6 V c 1 ⟨0, h⟩) k6_pay1)
    (hSs : ∀ (n : ℕ) (hn : n + 1 < cfg6.N),
      S (n + 1) hn = k6_pay4 (iblk6 V c 0 ⟨n + 1, hn⟩) (iblk6 V c 1 ⟨n + 1, hn⟩) (S n (Nat.lt_of_succ_lt hn)))
    (hC0 : ∀ h : 0 < cfg6.N, C 0 h = k6_pay5 (iblk6 V c 1 ⟨0, h⟩) k6_pay2)
    (hCs : ∀ (n : ℕ) (hn : n + 1 < cfg6.N),
      C (n + 1) hn = k6_pay5 (iblk6 V c 1 ⟨n + 1, hn⟩) (C n (Nat.lt_of_succ_lt hn)))
    (h19 : 19 < cfg6.N)
    (hlast : dat.after 6 ⟨19, h19⟩
      = k6_pay6 (View.ld (S 19 h19) r6_top) (View.ld (C 19 h19) r6_top)
          (iblk6 V c 2 ⟨19, h19⟩) (iblk6 V c 3 ⟨19, h19⟩) (iblk6 V c 4 ⟨19, h19⟩) (iblk6 V c 5 ⟨19, h19⟩)) :
    dat.arrAt 6 cfg6.N
      = poolOut (tileX (V c main_v86)) (tileB (V c main_v87)) (V c main_arg7) (V c main_v88) (V c main_arg9) (V c main_v89) := by
  have acc : ∀ (n : ℕ) (h : n < cfg6.N),
      S n h = poolSum (tileX (V c main_v86)) (tileB (V c main_v87)) n ∧ C n h = poolCnt (tileB (V c main_v87)) n := by
    intro n
    induction n with
    | zero => exact fun h => ⟨by rw [hS0, poolSum, iblk6_0_eq, iblk6_1_eq], by rw [hC0, poolCnt, iblk6_1_eq]⟩
    | succ n ih => exact fun h =>
      ⟨by rw [hSs, poolSum, iblk6_0_eq, iblk6_1_eq, (ih _).1], by rw [hCs, poolCnt, iblk6_1_eq, (ih _).2]⟩
  refine arrAt6_of_last dat _ h19 (hlast.trans ?_)
  rw [(acc 19 h19).1, (acc 19 h19).2, iblk6_2_eq, iblk6_3_eq, iblk6_4_eq, iblk6_5_eq]
  rfl

end Recurrence

end Cert.KernelIdeal.Val

end
-- ==== Proof.FrI.R6Pieces.lean ====
import proofs.«423718_j22230750724496_1_alg».proof.Proof.FrI.R6
import Idealize.ShloMosaic.Lib.Pipeline.Value

set_option maxRecDepth 16384

noncomputable section

namespace Cert.KernelIdeal.FrI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz6_2 : (![0, 0] : Fin 2 → Nat) = fun _ => 0 := funext fun a => by fin_cases a <;> rfl

/-- Reading a rectangle back after a single store over the whole shape gives that rectangle of the payload. -/
theorem readCov_whole_store6 {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld v _ r (fun y => ⟨_, List.mem_singleton_self _, View.mem_set_unit_zero h inb y⟩), View.canon_unit_zero h]

section Pt
variable (c : Dev nD) (i : grid6.Coords) (p : Args6) (x : Ins6 F)

/-- Case A's stores read back: the pooled sums and counts added to the zero fill (every store covers its buffer, so only the last one shows). -/
theorem left6_A (hc0 : cond6_0 i) (hc1 : ¬cond6_1 i) :
    (left6 (kernelRun6_A c i p x hc0 hc1)).2 = (k6_pay4 x.x0 x.x1 k6_pay1, k6_pay5 x.x1 k6_pay2) := by
  unfold left6; dsimp only
  rw [View.read_writes_eq_canon _ _ _ (View.cover_of_tiledL (kernelRun6_A c i p x hc0 hc1).2.1 S128x128.size (by sl_kernel_rfl)), View.read_writes_eq_canon _ _ _ (View.cover_of_tiledL (kernelRun6_A c i p x hc0 hc1).2.2.1 S128x128.size (by sl_kernel_rfl))]
  unfold kernelRun6_A; dsimp only; sl_unfold_words
  rw [View.canon_cons_unit_zero (S := S128x128) hz6_2, View.readCov_unit_zero (S := S128x128) _ hz6_2, View.canon_cons_unit_zero (S := S128x128) hz6_2, View.readCov_unit_zero (S := S128x128) _ hz6_2]
  simp only [View.readAt_eq_ld, p.h1.read_unread, p.h2.read_unread, p.h3.read_unread, p.h4.read_unread, p.h5.read_unread, p.h6.read_unread, p.h8.read_unread, p.h9.read_unread, View.ld_unit_zero (S := S5000x128) hz6_2, View.ld_unit_zero (S := S5000x1) hz6_2, View.ld_unit_zero (S := S128x128) hz6_2, View.ld_unit_zero (S := S1x128) hz6_2, View.ld_unit_zero (S := S128x4) hz6_2, View.ld_unit_zero (S := S1x4) hz6_2]

/-- Case B's stores read back: the pooled sums and counts added to what the accumulators held. -/
theorem left6_B (hc0 : ¬cond6_0 i) (hc1 : ¬cond6_1 i) (xs0 xs1 : Vec F S128x128 .f32) :
    (left6 (kernelRun6_B c i p x hc0 hc1 xs0 xs1)).2 = (k6_pay4 x.x0 x.x1 xs0, k6_pay5 x.x1 xs1) := by
  unfold left6; dsimp only
  rw [View.read_writes_eq_canon _ _ _ (View.cover_of_tiledL (kernelRun6_B c i p x hc0 hc1 xs0 xs1).2.1 S128x128.size (by sl_kernel_rfl)), View.read_writes_eq_canon _ _ _ (View.cover_of_tiledL (kernelRun6_B c i p x hc0 hc1 xs0 xs1).2.2.1 S128x128.size (by sl_kernel_rfl))]
  unfold kernelRun6_B; dsimp only; sl_unfold_words
  rw [View.canon_unit_zero (S := S128x128) hz6_2, View.canon_unit_zero (S := S128x128) hz6_2]
  simp only [View.readAt_eq_ld, p.h1.read_unread, p.h2.read_unread, p.h3.read_unread, p.h4.read_unread, p.h5.read_unread, p.h6.read_unread, p.h8.read_unread, p.h9.read_unread, View.ld_unit_zero (S := S5000x128) hz6_2, View.ld_unit_zero (S := S5000x1) hz6_2, View.ld_unit_zero (S := S128x128) hz6_2, View.ld_unit_zero (S := S1x128) hz6_2, View.ld_unit_zero (S := S128x4) hz6_2, View.ld_unit_zero (S := S1x4) hz6_2]

/-- Case C's stores read back: as case B, and the output is the head of the top 64 rows of the new sums and counts. -/
theorem left6_C (hc0 : ¬cond6_0 i) (hc1 : cond6_1 i) (xs0 xs1 : Vec F S128x128 .f32) :
    left6 (kernelRun6_C c i p x hc0 hc1 xs0 xs1) = (k6_pay6 (View.ld (k6_pay4 x.x0 x.x1 xs0) (Rect.unit (s := S128x128) ![0, 0] S64x128.size inb_S128x128_S64x128_0_0)) (View.ld (k6_pay5 x.x1 xs1) (Rect.unit (s := S128x128) ![0, 0] S64x128.size inb_S128x128_S64x128_0_0)) x.x2 x.x3 x.x4 x.x5, k6_pay4 x.x0 x.x1 xs0, k6_pay5 x.x1 xs1) := by
  unfold left6
  rw [View.read_writes_eq_canon _ _ _ (View.cover_of_tiledL (kernelRun6_C c i p x hc0 hc1 xs0 xs1).1 S64x4.size (by sl_kernel_rfl)), View.read_writes_eq_canon _ _ _ (View.cover_of_tiledL (kernelRun6_C c i p x hc0 hc1 xs0 xs1).2.1 S128x128.size (by sl_kernel_rfl)), View.read_writes_eq_canon _ _ _ (View.cover_of_tiledL (kernelRun6_C c i p x hc0 hc1 xs0 xs1).2.2.1 S128x128.size (by sl_kernel_rfl))]
  unfold kernelRun6_C; dsimp only; sl_unfold_words
  rw [View.canon_unit_zero (S := S64x4) hz6_2, View.canon_unit_zero (S := S128x128) hz6_2, View.canon_unit_zero (S := S128x128) hz6_2]
  rw [readCov_whole_store6 (S := S128x128) p.a8.view hz6_2, readCov_whole_store6 (S := S128x128) p.a9.view hz6_2]
  simp only [View.readAt_eq_ld, p.h1.read_unread, p.h2.read_unread, p.h3.read_unread, p.h4.read_unread, p.h5.read_unread, p.h6.read_unread, p.h8.read_unread, p.h9.read_unread, View.ld_unit_zero (S := S5000x128) hz6_2, View.ld_unit_zero (S := S5000x1) hz6_2, View.ld_unit_zero (S := S128x128) hz6_2, View.ld_unit_zero (S := S1x128) hz6_2, View.ld_unit_zero (S := S128x4) hz6_2, View.ld_unit_zero (S := S1x4) hz6_2]

end Pt

section Regions
variable (V : (c : Dev nD) → (b : Ref sig .tc) → Buf (Elt F) ((c : Thread nD τ).loc b))

/-- One step of the accumulation: the sums and counts after position `n + 1` from those after `n`. -/
theorem acc6_succ (c : Dev nD) (n : ℕ) (hn : n + 1 < cfg6.N) :
    (outsAt6 V c (n + 1) hn).2 = (k6_pay4 (iblk6 V c 0 ⟨n + 1, hn⟩) (iblk6 V c 1 ⟨n + 1, hn⟩) (outsAt6 V c n (Nat.lt_of_succ_lt hn)).2.1, k6_pay5 (iblk6 V c 1 ⟨n + 1, hn⟩) (outsAt6 V c n (Nat.lt_of_succ_lt hn)).2.2) := by
  by_cases h1 : n + 1 = 19
  · exact (congrArg Prod.snd (outsAt6_C V c ⟨n + 1, hn⟩ (Nat.succ_ne_zero n) h1)).trans (congrArg Prod.snd (left6_C c _ _ _ _ _ _ _))
  · exact (congrArg Prod.snd (outsAt6_B V c ⟨n + 1, hn⟩ (Nat.succ_ne_zero n) h1)).trans (left6_B c _ _ _ _ _ _ _)

theorem sum6_zero (c : Dev nD) (h : 0 < cfg6.N) :
    sum6 V c 0 h = k6_pay4 (iblk6 V c 0 ⟨0, h⟩) (iblk6 V c 1 ⟨0, h⟩) k6_pay1 :=
  congrArg Prod.fst (left6_A c _ _ _ _ _)

theorem cnt6_zero (c : Dev nD) (h : 0 < cfg6.N) :
    cnt6 V c 0 h = k6_pay5 (iblk6 V c 1 ⟨0, h⟩) k6_pay2 :=
  congrArg Prod.snd (left6_A c _ _ _ _ _)

theorem sum6_succ (c : Dev nD) (n : ℕ) (hn : n + 1 < cfg6.N) :
    sum6 V c (n + 1) hn = k6_pay4 (iblk6 V c 0 ⟨n + 1, hn⟩) (iblk6 V c 1 ⟨n + 1, hn⟩) (sum6 V c n (Nat.lt_of_succ_lt hn)) :=
  congrArg Prod.fst (acc6_succ V c n hn)

theorem cnt6_succ (c : Dev nD) (n : ℕ) (hn : n + 1 < cfg6.N) :
    cnt6 V c (n + 1) hn = k6_pay5 (iblk6 V c 1 ⟨n + 1, hn⟩) (cnt6 V c n (Nat.lt_of_succ_lt hn)) :=
  congrArg Prod.snd (acc6_succ V c n hn)

/-- The output is the head of the final sums and counts (their top 64 rows) with the weights and biases as the region found them. -/
theorem after6_6_last (c : Dev nD) (h : 19 < cfg6.N) :
    (dat6 V c).after 6 ⟨19, h⟩ = k6_pay6 (View.ld (sum6 V c 19 h) (Rect.unit (s := S128x128) ![0, 0] S64x128.size inb_S128x128_S64x128_0_0)) (View.ld (cnt6 V c 19 h) (Rect.unit (s := S128x128) ![0, 0] S64x128.size inb_S128x128_S64x128_0_0)) (iblk6 V c 2 ⟨19, h⟩) (iblk6 V c 3 ⟨19, h⟩) (iblk6 V c 4 ⟨19, h⟩) (iblk6 V c 5 ⟨19, h⟩) := by
  rw [after6_6, show sum6 V c 19 h = _ from sum6_succ V c 18 h, show cnt6 V c 19 h = _ from cnt6_succ V c 18 h]
  exact (congrArg Prod.fst (outsAt6_C V c ⟨19, h⟩ (Nat.succ_ne_zero 18) rfl)).trans (congrArg Prod.fst (left6_C c _ _ _ _ _ _ _))

end Regions

end Cert.KernelIdeal.FrI

end
-- ==== Proof.Val.PoolOut.lean ====
import proofs.«423718_j22230750724496_1_alg».proof.Proof.Val.PoolGlue
import proofs.«423718_j22230750724496_1_alg».proof.Proof.FrI.R6Pieces

set_option maxRecDepth 16384

noncomputable section

namespace Cert.KernelIdeal.Val

open Cert.KernelIdeal Cert.KernelIdeal.Gen Cert.KernelIdeal.FrI
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem arr_out6 (c : Dev nD) :
    (dat6 V c).arrAt 6 cfg6.N
      = poolOut (tileX (V c main_v86)) (tileB (V c main_v87)) (V c main_arg7) (V c main_v88) (V c main_arg9) (V c main_v89) :=
  arr_out6_of V c (dat6 V c) (sum6 V c) (cnt6 V c) (sum6_zero V c) (sum6_succ V c) (cnt6_zero V c) (cnt6_succ V c)
    (by decide) (after6_6_last V c _)

end Cert.KernelIdeal.Val

end
-- ==== Proof.Val.PoolMathA.lean ====
import proofs.«423718_j22230750724496_1_alg».proof.Proof.FrI.PoolSpec
import Idealize.ShloMosaic.Lib.KernelVsHost
import Idealize.ShloMosaic.Lib.StackMember
import Idealize.ShloMosaic.Lib.ValueLayout
import Idealize.ShloMosaic.PureOps.IdealRules
import Idealize.ShloMosaic.Lib.StableHlo.Predicate

noncomputable section

namespace Cert.KernelIdeal.Val

open Cert.KernelIdeal Cert.KernelIdeal.Gen Cert.KernelIdeal.FrI
open Idealize.ShloMosaic Idealize.ShloMosaic.ValueIdx

def ind (w : BitVec 32) (g : ℕ) : EReal := if w = BitVec.ofNat 32 g then 1 else 0

theorem bit_toReal (b : BitVec 1) : (((b.setWidth 32).toInt : ℝ) : EReal) = if b = 1#1 then 1 else 0 := by
  rcases BitVec.eq_zero_or_eq_one b with h | h <;> subst h <;> simp

-- Entry `(g, r)` of a tile's transposed one-hot matrix says whether row `r`'s graph id is the word `g`.
theorem oneHotT_apply (v6 : IVec S5000x1 32) (g : Fin 128) (r : Fin 5000) :
    transpose S128x5000 [1, 0] (k6_pay3 (F := Ideal) v6) transposes_S5000x128_p1_0_S128x5000 (ix2 g r) = ind (v6 (ix2 r 0)) g.val := by
  rw [transpose_ix2_apply]
  unfold k6_pay3 ind
  dsimp only
  rw [truncf_apply, sitofp_apply, extui_apply]
  show ((((IntOp.cmpi .eq _ _).setWidth 32).toInt : ℝ) : EReal) = _
  rw [bit_toReal, iota_single_apply, shapeCast_self,
    broadcastTo_apply v6 broadcasts_S5000x1_S5000x128 (ix2 r g) (ix2 r 0) (fun a => match a with
      | ⟨0, _⟩ => by show r.val = if (5000 : Nat) = 1 then 0 else r.val; rw [if_neg (by decide)]
      | ⟨1, _⟩ => by show 0 = if (1 : Nat) = 1 then 0 else g.val; rw [if_pos rfl])]
  simp only [StableHlo.Predicate.cmpi_eq_iff]

-- Adding to `acc` the transposed one-hot matrix times any `[5000, 128]` operand adds, at `(g, k)`, the operand's column `k` over the rows of graph `g`.
theorem poolAcc_apply {φ : FTy} (v6 : IVec S5000x1 32) (X : FVec Ideal S5000x128 φ) (acc : FVec Ideal S128x128 .f32) (g k : Fin 128) :
    addf acc (matmul dot_S128x5000_S5000x128_S128x128_1_0_0_1_n_n none
        (transpose S128x5000 [1, 0] (k6_pay3 (F := Ideal) v6) transposes_S5000x128_p1_0_S128x5000) X
        (constant (F := Ideal) S128x128 .f32 0x00000000#32)) (ix2 g k)
      = acc (ix2 g k) + ∑ r : Fin 5000, ind (v6 (ix2 r 0)) g.val * X (ix2 r k) := by
  rw [addf_apply, matmul_zero_eq_dotGeneral]
  refine congrArg (acc (ix2 g k) + ·) ((StackMember.dotGeneral_plain_apply none _ X g k).trans ?_)
  exact Finset.sum_congr rfl fun r _ => congrArg (· * X (ix2 r k)) (oneHotT_apply v6 g r)

theorem poolPay4_apply (v3 : FVec Ideal S5000x128 .f32) (v6 : IVec S5000x1 32) (acc : FVec Ideal S128x128 .f32) (g k : Fin 128) :
    k6_pay4 (F := Ideal) v3 v6 acc (ix2 g k) = acc (ix2 g k) + ∑ r : Fin 5000, ind (v6 (ix2 r 0)) g.val * v3 (ix2 r k) := by
  unfold k6_pay4
  dsimp only
  rw [shapeCast_self, shapeCast_self, poolAcc_apply]
  rfl

theorem poolPay5_apply (v6 : IVec S5000x1 32) (acc : FVec Ideal S128x128 .f32) (g k : Fin 128) :
    k6_pay5 (F := Ideal) v6 acc (ix2 g k) = acc (ix2 g k) + ∑ r : Fin 5000, ind (v6 (ix2 r 0)) g.val := by
  unfold k6_pay5
  dsimp only
  rw [shapeCast_self, poolAcc_apply]
  exact congrArg (acc (ix2 g k) + ·) (Finset.sum_congr rfl fun r _ =>
    (congrArg (_ * ·) (IdealRules.sign_bit.ideal_onePat .bf16)).trans (mul_one _))

theorem poolPay1_apply (i : S128x128.Idx) : (k6_pay1 (F := Ideal)) i = 0 := by
  unfold k6_pay1
  rw [shapeCast_self]
  exact Ideal.ofBits_zero_f32

theorem poolPay2_apply (i : S128x128.Idx) : (k6_pay2 (F := Ideal)) i = 0 := poolPay1_apply i

-- An accumulator that starts at its first addend and adds one addend a step is the sum of the addends.
theorem sum_of_rec {M : Type*} [AddCommMonoid M] (a m : ℕ → M) (h0 : a 0 = m 0) (hs : ∀ n, a (n + 1) = a n + m (n + 1)) (n : ℕ) :
    a n = ∑ t ∈ Finset.range (n + 1), m t := by
  induction n with
  | zero => rw [h0, Finset.sum_range_one]
  | succ n ih => rw [hs, ih, Finset.sum_range_succ m (n + 1)]

theorem poolSum_apply (xb : ℕ → FVec Ideal S5000x128 .f32) (bb : ℕ → IVec S5000x1 32) (n : ℕ) (g k : Fin 128) :
    poolSum (F := Ideal) xb bb n (ix2 g k)
      = ∑ t ∈ Finset.range (n + 1), ∑ r : Fin 5000, ind (bb t (ix2 r 0)) g.val * xb t (ix2 r k) :=
  sum_of_rec (fun n => poolSum (F := Ideal) xb bb n (ix2 g k)) _
    (by rw [poolSum, poolPay4_apply, poolPay1_apply, zero_add]) (fun n => by rw [poolSum, poolPay4_apply]) n

theorem poolCnt_apply (bb : ℕ → IVec S5000x1 32) (n : ℕ) (g k : Fin 128) :
    poolCnt (F := Ideal) bb n (ix2 g k)
      = ∑ t ∈ Finset.range (n + 1), ∑ r : Fin 5000, ind (bb t (ix2 r 0)) g.val :=
  sum_of_rec (fun n => poolCnt (F := Ideal) bb n (ix2 g k)) _
    (by rw [poolCnt, poolPay5_apply, poolPay2_apply, zero_add]) (fun n => by rw [poolCnt, poolPay5_apply]) n

end Cert.KernelIdeal.Val

end
-- ==== Proof.Val.PoolMathB.lean ====
import proofs.«423718_j22230750724496_1_alg».proof.ReferenceIdeal
import proofs.«423718_j22230750724496_1_alg».proof.Proof.Gen.ReferenceIdeal
import Idealize.ShloMosaic.Lib.Pipeline.Value
import Idealize.ShloMosaic.Lib.ValueIdxRank1
import Idealize.ShloMosaic.PureOps.Ideal.Laws

noncomputable section

namespace Cert.KernelIdeal.Val

open Cert.ReferenceIdeal Cert.ReferenceIdeal.Gen
open Idealize.ShloMosaic Idealize.ShloMosaic.ValueIdx

-- An update lands on `i` exactly when, on every axis, its window's start plus its window coordinate is `i`'s coordinate.
theorem lands_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  rw [Option.dite_none_right_eq_some]
  constructor
  · rintro ⟨h, he⟩ a
    have e : (d.start j idx a + (d.window j a : ℤ)).toNat = (i a).val := congrArg Fin.val (congrFun (Option.some.inj he) a)
    have := h a
    omega
  · intro h
    refine ⟨fun a => ?_, congrArg some (funext fun a => Fin.ext ?_)⟩
    · have := (i a).isLt; have := h a; omega
    · show (d.start j idx a + (d.window j a : ℤ)).toNat = (i a).val
      have := h a; omega

theorem scatS_start0 (j : S100000x128.Idx) (idx : IVec S100000x1 32) :
    scatter_S64x128_S100000x1_S100000x128_1_0_0_1.start j idx 0 = (idx (ix2 (j 0) 0)).toInt :=
  (dif_pos (List.mem_singleton.mpr rfl)).trans (congrArg (fun i => (idx i).toInt)
    (funext fun b => Fin.ext (match b with | ⟨0, _⟩ => rfl | ⟨1, _⟩ => rfl)))

theorem scatS_start1 (j : S100000x128.Idx) (idx : IVec S100000x1 32) : scatter_S64x128_S100000x1_S100000x128_1_0_0_1.start j idx 1 = 0 :=
  dif_neg (by decide)

theorem scatS_window0 (j : S100000x128.Idx) : scatter_S64x128_S100000x1_S100000x128_1_0_0_1.window j 0 = 0 :=
  dif_neg (by decide)

theorem scatS_window1 (j : S100000x128.Idx) : scatter_S64x128_S100000x1_S100000x128_1_0_0_1.window j 1 = (j 1).val :=
  dif_pos (by decide)

theorem scatS_lands (idx : IVec S100000x1 32) (n : Fin 100000) (k' : Fin 128) (g : Fin 64) (k : Fin 128) :
    scatter_S64x128_S100000x1_S100000x128_1_0_0_1.resultIdx? (ix2 n k') idx = some (ix2 g k)
      ↔ (idx (ix2 n 0)).toInt = (g.val : ℤ) ∧ k' = k := by
  rw [lands_iff, Fin.forall_fin_two, scatS_start0, scatS_start1, scatS_window0, scatS_window1, Fin.ext_iff]
  show (idx (ix2 n 0)).toInt + ((0 : ℕ) : ℤ) = (g.val : ℤ) ∧ (0 : ℤ) + ((k'.val : ℕ) : ℤ) = (k.val : ℤ) ↔ _
  omega

-- The feature scatter at `(g, k)`: the operand there plus column `k` of the updates over the rows whose graph id, read signed, is `g`.
theorem scatS_apply (x : FVec Ideal S64x128 .f32) (idx : IVec S100000x1 32) (upd : FVec Ideal S100000x128 .f32) (g : Fin 64) (k : Fin 128) :
    Host.scatterAdd (F := Ideal) scatter_S64x128_S100000x1_S100000x128_1_0_0_1 x idx upd (ix2 g k)
      = x (ix2 g k) + ∑ n : Fin 100000, if (idx (ix2 n 0)).toInt = (g.val : ℤ) then upd (ix2 n k) else 0 := by
  show Ideal.hostScatterAdd scatter_S64x128_S100000x1_S100000x128_1_0_0_1 x idx upd (ix2 g k) = _
  unfold Ideal.hostScatterAdd
  rw [Finset.sum_filter, sum_idx2]
  simp only [scatS_lands, ite_and, Finset.sum_ite_irrel, Finset.sum_const_zero, Finset.sum_ite_eq', Finset.mem_univ, if_true]

theorem scatC_start0 (j : S100000.Idx) (idx : IVec S100000x1 32) :
    scatter_S64_S100000x1_S100000_n_0_0_1.start j idx 0 = (idx (ix2 (j 0) 0)).toInt :=
  (dif_pos (List.mem_singleton.mpr rfl)).trans (congrArg (fun i => (idx i).toInt)
    (funext fun b => Fin.ext (match b with | ⟨0, _⟩ => rfl | ⟨1, _⟩ => rfl)))

theorem scatC_window0 (j : S100000.Idx) : scatter_S64_S100000x1_S100000_n_0_0_1.window j 0 = 0 :=
  dif_neg (by decide)

theorem scatC_lands (idx : IVec S100000x1 32) (n : Fin 100000) (g : Fin 64) :
    scatter_S64_S100000x1_S100000_n_0_0_1.resultIdx? (ix1 n) idx = some (ix1 g) ↔ (idx (ix2 n 0)).toInt = (g.val : ℤ) := by
  rw [lands_iff, Fin.forall_fin_one, scatC_start0, scatC_window0]
  show (idx (ix2 n 0)).toInt + ((0 : ℕ) : ℤ) = (g.val : ℤ) ↔ _
  omega

-- The count scatter at `g`: the operand there plus the updates over the rows whose graph id, read signed, is `g`.
theorem scatC_apply (x : FVec Ideal S64 .f32) (idx : IVec S100000x1 32) (upd : FVec Ideal S100000 .f32) (g : Fin 64) :
    Host.scatterAdd (F := Ideal) scatter_S64_S100000x1_S100000_n_0_0_1 x idx upd (ix1 g)
      = x (ix1 g) + ∑ n : Fin 100000, if (idx (ix2 n 0)).toInt = (g.val : ℤ) then upd (ix1 n) else 0 := by
  show Ideal.hostScatterAdd scatter_S64_S100000x1_S100000_n_0_0_1 x idx upd (ix1 g) = _
  unfold Ideal.hostScatterAdd
  rw [Finset.sum_filter, ← Equiv.sum_comp idxEquiv1.symm]
  exact congrArg (x (ix1 g) + ·) (Finset.sum_congr rfl fun n _ => if_congr (scatC_lands idx n g) rfl rfl)

def refHead (pooled : FVec Ideal S64x128 .f32) (fw1 : FVec Ideal S128x128 .f32) (fb1row : FVec Ideal S1x128 .f32)
    (fw2 : FVec Ideal S128x4 .f32) (fb2row : FVec Ideal S1x4 .f32) : FVec Ideal S64x4 .f32 :=
  addf
    (Host.dotGeneral dot_S64x128_S128x4_S64x4_1_0_0_1_n_n none
      (maximumf
        (addf (Host.dotGeneral dot_S64x128_S128x128_S64x128_1_0_0_1_n_n none pooled fw1)
          (broadcastInDim S64x128 ![0, 1] bcast_S1x128_S64x128_0_1 fb1row))
        (broadcastInDim S64x128 ![] bcast_S_S64x128 (constant (F := Ideal) S_ .f32 0x00000000#32)))
      fw2)
    (broadcastInDim S64x4 ![0, 1] bcast_S1x4_S64x4_0_1 fb2row)

def refSum (h : FVec Ideal S100000x128 .f32) (bcol : IVec S100000x1 32) : FVec Ideal S64x128 .f32 :=
  Host.scatterAdd scatter_S64x128_S100000x1_S100000x128_1_0_0_1
    (broadcastInDim S64x128 ![] bcast_S_S64x128 (constant (F := Ideal) S_ .f32 0x00000000#32)) bcol h

def refCnt (bcol : IVec S100000x1 32) : FVec Ideal S64x128 .f32 :=
  broadcastInDim S64x128 ![0, 1] bcast_S64x1_S64x128_0_1
    (broadcastInDim S64x1 ![0] bcast_S64_S64x1_0
      (maximumf
        (Host.scatterAdd scatter_S64_S100000x1_S100000_n_0_0_1
          (broadcastInDim S64 ![] bcast_S_S64 (constant (F := Ideal) S_ .f32 0x00000000#32)) bcol
          (broadcastInDim S100000 ![] bcast_S_S100000 (constant (F := Ideal) S_ .f32 0x3F800000#32)))
        (broadcastInDim S64 ![] bcast_S_S64 (constant (F := Ideal) S_ .f32 0x3F800000#32))))

-- The reference's pooling and head: the two dense layers on the quotient of the per-graph sums by the clamped counts.
def refTail (h : FVec Ideal S100000x128 .f32) (bcol : IVec S100000x1 32) (fw1 : FVec Ideal S128x128 .f32) (fb1row : FVec Ideal S1x128 .f32)
    (fw2 : FVec Ideal S128x4 .f32) (fb2row : FVec Ideal S1x4 .f32) : FVec Ideal S64x4 .f32 :=
  refHead (Host.divf (refSum h bcol) (refCnt bcol)) fw1 fb1row fw2 fb2row

theorem refSum_apply (h : FVec Ideal S100000x128 .f32) (bcol : IVec S100000x1 32) (g : Fin 64) (k : Fin 128) :
    refSum h bcol (ix2 g k) = ∑ n : Fin 100000, if (bcol (ix2 n 0)).toInt = (g.val : ℤ) then h (ix2 n k) else 0 := by
  unfold refSum
  rw [scatS_apply]
  show Ideal.ofBits .f32 0x00000000#32 + _ = _
  rw [Ideal.ofBits_zero_f32, zero_add]

theorem refCnt_apply (bcol : IVec S100000x1 32) (g : Fin 64) (k : Fin 128) :
    refCnt bcol (ix2 g k)
      = max (∑ n : Fin 100000, if (bcol (ix2 n 0)).toInt = (g.val : ℤ) then Ideal.ofBits .f32 0x3F800000#32 else 0)
          (Ideal.ofBits .f32 0x3F800000#32) := by
  unfold refCnt
  rw [broadcastInDim_apply _ bcast_S64x1_S64x128_0_1 _ (ix2 g k) (ix2 g 0) (fun a => match a with
      | ⟨0, _⟩ => (if_neg (by decide : ¬(64 : ℕ) = 1)).symm
      | ⟨1, _⟩ => (if_pos rfl).symm),
    broadcastInDim_apply _ bcast_S64_S64x1_0 _ (ix2 g 0) (ix1 g) (fun a => match a with
      | ⟨0, _⟩ => (if_neg (by decide : ¬(64 : ℕ) = 1)).symm),
    maximumf_apply, scatC_apply]
  show max (Ideal.ofBits .f32 0x00000000#32 + _) _ = _
  rw [Ideal.ofBits_zero_f32, zero_add]
  rfl

end Cert.KernelIdeal.Val

end
-- ==== Proof.Val.PoolMath.lean ====
import proofs.«423718_j22230750724496_1_alg».proof.Proof.FrI.Tiles
import proofs.«423718_j22230750724496_1_alg».proof.Proof.Val.PoolMathA
import proofs.«423718_j22230750724496_1_alg».proof.Proof.Val.PoolMathB

noncomputable section

namespace Cert.KernelIdeal.Val

open Cert.KernelIdeal Cert.KernelIdeal.Gen Cert.KernelIdeal.FrI
open Idealize.ShloMosaic Idealize.ShloMosaic.ValueIdx

-- The twenty tiles of 5000 rows partition the 100000 rows.
theorem sum_tiles {M : Type*} [AddCommMonoid M] (f : Fin 100000 → M) :
    ∑ t ∈ Finset.range (19 + 1), ∑ r : Fin 5000, f (tileRow t r) = ∑ n : Fin 100000, f n := by
  rw [Finset.sum_range fun t => ∑ r : Fin 5000, f (tileRow t r), ← Equiv.sum_comp (finProdFinEquiv (m := 20) (n := 5000)) f,
    Fintype.sum_prod_type]
  refine Finset.sum_congr rfl fun t _ => Finset.sum_congr rfl fun r _ => congrArg f (Fin.ext ?_)
  show 5000 * (t.val % 20) + r.val = r.val + 5000 * t.val
  have := t.isLt; omega

-- For a number below 2³¹, "the word is the number" and "the word, read signed, is the number" are one condition.
theorem ind_eq (w : BitVec 32) (g : ℕ) (hg : g < 2 ^ 31) : ind w g = if w.toInt = (g : ℤ) then 1 else 0 := by
  unfold ind
  refine if_congr ⟨fun h => ?_, fun h => ?_⟩ rfl rfl
  · rw [h]; exact StableHlo.Predicate.toInt_ofNat_small g hg
  · exact BitVec.eq_of_toInt_eq (h.trans (StableHlo.Predicate.toInt_ofNat_small g hg).symm)

theorem ld_top_apply (X : FVec Ideal S128x128 .f32) (g : Fin 64) (k : Fin 128) :
    View.ld (Val := Elt Ideal) (e' := .f32) X r6_top (ix2 g k) = X (ix2 (Fin.castLE (by decide) g : Fin 128) k) := by
  show X (r6_top.emb (ix2 g k)) = _
  refine congrArg X (funext fun a => Fin.ext ?_)
  match a with
  | ⟨0, _⟩ => show 0 + 1 * g.val = g.val; omega
  | ⟨1, _⟩ => show 0 + 1 * k.val = k.val; omega

theorem poolSum_top (h : FVec Ideal S100000x128 .f32) (bcol : IVec S100000x1 32) :
    View.ld (Val := Elt Ideal) (e' := .f32) (poolSum (F := Ideal) (tileX h) (tileB bcol) 19) r6_top = refSum h bcol := by
  funext i
  obtain ⟨g, k, rfl⟩ : ∃ (g : Fin 64) (k : Fin 128), i = ix2 g k := ⟨i 0, i 1, eq_ix2 i⟩
  rw [ld_top_apply, poolSum_apply, refSum_apply]
  refine (sum_tiles fun n => ind (bcol (ix2 n 0)) g.val * h (ix2 n k)).trans ?_
  exact Finset.sum_congr rfl fun n _ => by rw [ind_eq _ _ (by have := g.isLt; omega), ite_mul, one_mul, zero_mul]

theorem poolCnt_top (bcol : IVec S100000x1 32) :
    maximumf (View.ld (Val := Elt Ideal) (e' := .f32) (poolCnt (F := Ideal) (tileB bcol) 19) r6_top)
        (broadcast S64x128 (Scalar.ofBits (F := Ideal) .f32 0x3F800000#32))
      = refCnt bcol := by
  funext i
  obtain ⟨g, k, rfl⟩ : ∃ (g : Fin 64) (k : Fin 128), i = ix2 g k := ⟨i 0, i 1, eq_ix2 i⟩
  rw [maximumf_apply, ld_top_apply, poolCnt_apply, refCnt_apply]
  refine congrArg₂ max ((sum_tiles fun n => ind (bcol (ix2 n 0)) g.val).trans ?_) rfl
  refine Finset.sum_congr rfl fun n _ => ?_
  rw [ind_eq _ _ (by have := g.isLt; omega), show Ideal.ofBits .f32 0x3F800000#32 = 1 from IdealRules.sign_bit.ideal_onePat .f32]

-- A one-row array laid along `m` rows, in the kernel's spelling and in the reference's.
theorem rowBcast {α : Type} {m n : ℕ} (v : (⟨2, ![1, n]⟩ : Shape).Idx → α) (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ v hb = broadcastInDim ⟨2, ![m, n]⟩ ![0, 1] hd v := by
  funext i
  obtain ⟨p, c, rfl⟩ : ∃ (p : Fin m) (c : Fin n), i = ix2 p c := ⟨i 0, i 1, eq_ix2 i⟩
  rw [broadcastTo_1b_ab_apply, broadcastInDim_oneRow_apply]

-- The last point's arithmetic is the reference's two dense layers on the quotient of the sums by the clamped counts.
theorem head_eq (s c : FVec Ideal S64x128 .f32) (fw1 : FVec Ideal S128x128 .f32) (fb1 : FVec Ideal S1x128 .f32)
    (fw2 : FVec Ideal S128x4 .f32) (fb2 : FVec Ideal S1x4 .f32) :
    k6_pay6 (F := Ideal) s c fw1 fb1 fw2 fb2
      = refHead (Host.divf s (maximumf c (broadcast S64x128 (Scalar.ofBits (F := Ideal) .f32 0x3F800000#32)))) fw1 fb1 fw2 fb2 := by
  unfold k6_pay6 refHead
  dsimp only
  rw [shapeCast_self, shapeCast_self, matmul_zero_eq_dotGeneral, matmul_zero_eq_dotGeneral,
    rowBcast _ _ Cert.ReferenceIdeal.Gen.bcast_S1x128_S64x128_0_1, rowBcast _ _ Cert.ReferenceIdeal.Gen.bcast_S1x4_S64x4_0_1,
    broadcastInDim_constant]
  rfl

theorem poolOut_eq_refTail (h : FVec Ideal S100000x128 .f32) (bcol : IVec S100000x1 32) (fw1 : FVec Ideal S128x128 .f32)
    (fb1row : FVec Ideal S1x128 .f32) (fw2 : FVec Ideal S128x4 .f32) (fb2row : FVec Ideal S1x4 .f32) :
    poolOut (F := Ideal) (tileX h) (tileB bcol) fw1 fb1row fw2 fb2row = refTail h bcol fw1 fb1row fw2 fb2row :=
  (head_eq _ _ fw1 fb1row fw2 fb2row).trans (by rw [poolSum_top, poolCnt_top]; rfl)

end Cert.KernelIdeal.Val

end
-- ==== Proof.Val.Chain.lean ====
import proofs.«423718_j22230750724496_1_alg».proof.Proof.FrI.RunW
import proofs.«423718_j22230750724496_1_alg».proof.Proof.Gen.ReferenceIdeal.Read
import proofs.«423718_j22230750724496_1_alg».proof.Proof.Val.Mat0
import proofs.«423718_j22230750724496_1_alg».proof.Proof.Val.Mat2
import proofs.«423718_j22230750724496_1_alg».proof.Proof.Val.Mat4
import proofs.«423718_j22230750724496_1_alg».proof.Proof.Val.Bias1
import proofs.«423718_j22230750724496_1_alg».proof.Proof.Val.Bias3
import proofs.«423718_j22230750724496_1_alg».proof.Proof.Val.Bias5
import proofs.«423718_j22230750724496_1_alg».proof.Proof.Val.Reshapes
import proofs.«423718_j22230750724496_1_alg».proof.Proof.Val.PoolOut
import proofs.«423718_j22230750724496_1_alg».proof.Proof.Val.PoolMath
import Idealize.ShloMosaic.Lib.StableHlo.Run

set_option maxRecDepth 16384

noncomputable section

namespace Cert.KernelIdeal.Val

open Cert.KernelIdeal Cert.KernelIdeal.Gen Cert.KernelIdeal.FrI
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-- An argument array's contents at the launch. -/
abbrev arg (r : Ref sig .tc) : Buf (Elt Ideal) ((c.tc : Thread nD τ).loc r) := m ((c.tc : Thread nD τ).loc r)

macro "carry" : tactic => `(tactic| (repeat (first
  | dsimp only [W1, W3, W6, W9, W11]
  | (rw [W12_of_ne]; rotate_left; decide)
  | (rw [StableHlo.after_of_writes_sub hostOps6 _ hostOps6_writes]; rotate_left; decide)
  | (rw [W10_of_ne]; rotate_left; decide)
  | (rw [StableHlo.after_of_writes_sub hostOps5 _ hostOps5_writes]; rotate_left; decide)
  | (rw [W8_of_ne]; rotate_left; decide)
  | (rw [W7_of_ne]; rotate_left; decide)
  | (rw [StableHlo.after_of_writes_sub hostOps3 _ hostOps3_writes]; rotate_left; decide)
  | (rw [W5_of_ne]; rotate_left; decide)
  | (rw [W4_of_ne]; rotate_left; decide)
  | (rw [StableHlo.after_of_writes_sub hostOps1 _ hostOps1_writes]; rotate_left; decide)
  | (rw [W2_of_ne]; rotate_left; decide)
  | (rw [StableHlo.after_of_writes_sub hostOps0 _ hostOps0_writes]; rotate_left; decide))))

theorem W1_v1 : W1 m ρ c (Proc.devRef .tc main_v1) = val_main_v1 (F := Ideal) (arg m c main_arg11) := by
  show StableHlo.after (hostOps0 (F := Ideal)) (W0 m ρ c) (Proc.devRef .tc main_v1) = _
  after_results_simp <;> rfl
theorem W1_v3 : W1 m ρ c (Proc.devRef .tc main_v3) = val_main_v3 (F := Ideal) (arg m c main_arg11) := by
  show StableHlo.after (hostOps0 (F := Ideal)) (W0 m ρ c) (Proc.devRef .tc main_v3) = _
  after_results_simp <;> rfl
theorem W1_v25 : W1 m ρ c (Proc.devRef .tc main_v25) = val_main_v26 (F := Ideal) (arg m c main_arg11) := by
  show StableHlo.after (hostOps0 (F := Ideal)) (W0 m ρ c) (Proc.devRef .tc main_v25) = _
  after_results_simp <;> rfl
theorem W1_v26 : W1 m ρ c (Proc.devRef .tc main_v26) = val_main_v40 (F := Ideal) (arg m c main_arg11) := by
  show StableHlo.after (hostOps0 (F := Ideal)) (W0 m ρ c) (Proc.devRef .tc main_v26) = _
  after_results_simp <;> rfl

theorem W1_arg0 : W1 m ρ c (Proc.devRef .tc main_arg0) = (arg m c main_arg0) := by
  carry
theorem W1_arg1 : W1 m ρ c (Proc.devRef .tc main_arg1) = (arg m c main_arg1) := by
  carry

theorem W2_v27 : W2 m ρ c (Proc.devRef .tc main_v27) = val_main_v4 (F := Ideal) (arg m c main_arg0) (arg m c main_arg1) := by
  refine (W2_arr m ρ c 2).trans ?_
  rw [arr_out0 (V1 m ρ) c]
  rw [show V1 m ρ c main_arg0 = _ from W1_arg0 m ρ c, show V1 m ρ c main_arg1 = _ from W1_arg1 m ρ c]
  rfl
theorem W2_v1 : W2 m ρ c (Proc.devRef .tc main_v1) = val_main_v1 (F := Ideal) (arg m c main_arg11) := by
  refine Eq.trans ?_ (W1_v1 m ρ c); carry
theorem W2_v3 : W2 m ρ c (Proc.devRef .tc main_v3) = val_main_v3 (F := Ideal) (arg m c main_arg11) := by
  refine Eq.trans ?_ (W1_v3 m ρ c); carry
theorem W2_v25 : W2 m ρ c (Proc.devRef .tc main_v25) = val_main_v26 (F := Ideal) (arg m c main_arg11) := by
  refine Eq.trans ?_ (W1_v25 m ρ c); carry
theorem W2_v26 : W2 m ρ c (Proc.devRef .tc main_v26) = val_main_v40 (F := Ideal) (arg m c main_arg11) := by
  refine Eq.trans ?_ (W1_v26 m ρ c); carry
theorem W2_arg2 : W2 m ρ c (Proc.devRef .tc main_arg2) = (arg m c main_arg2) := by
  carry

theorem W3_v44 : W3 m ρ c (Proc.devRef .tc main_v44) = val_main_v44 (F := Ideal) (arg m c main_arg0) (arg m c main_arg1) (arg m c main_arg11) := by
  show StableHlo.after (hostOps1 (F := Ideal)) (W2 m ρ c) (Proc.devRef .tc main_v44) = _
  after_results_simp
  rw [W2_v27 m ρ c, W2_v1 m ρ c, W2_v3 m ρ c, W2_v25 m ρ c, W2_v26 m ρ c]
  rfl
theorem W3_v45 : W3 m ρ c (Proc.devRef .tc main_v45) = val_main_v45 (F := Ideal) (arg m c main_arg2) := by
  show StableHlo.after (hostOps1 (F := Ideal)) (W2 m ρ c) (Proc.devRef .tc main_v45) = _
  after_results_simp
  rw [W2_arg2 m ρ c]
  exact row_of_vec128 _
theorem W4_v46 : W4 m ρ c (Proc.devRef .tc main_v46) = val_main_v48 (F := Ideal) (arg m c main_arg0) (arg m c main_arg1) (arg m c main_arg2) (arg m c main_arg11) := by
  refine (W4_arr m ρ c 2).trans ?_
  rw [arr_out1 (F := Ideal) (V3 m ρ) c]
  rw [show V3 m ρ c main_v44 = _ from W3_v44 m ρ c, show V3 m ρ c main_v45 = _ from W3_v45 m ρ c]
  rfl

theorem W4_arg3 : W4 m ρ c (Proc.devRef .tc main_arg3) = (arg m c main_arg3) := by
  carry
theorem W5_v47 : W5 m ρ c (Proc.devRef .tc main_v47) = val_main_v49 (F := Ideal) (arg m c main_arg0) (arg m c main_arg1) (arg m c main_arg2) (arg m c main_arg3) (arg m c main_arg11) := by
  refine (W5_arr m ρ c 2).trans ?_
  rw [arr_out2 (V4 m ρ) c]
  rw [show V4 m ρ c main_v46 = _ from W4_v46 m ρ c, show V4 m ρ c main_arg3 = _ from W4_arg3 m ρ c]
  rfl
theorem W5_v1 : W5 m ρ c (Proc.devRef .tc main_v1) = val_main_v1 (F := Ideal) (arg m c main_arg11) := by
  refine Eq.trans ?_ (W1_v1 m ρ c); carry
theorem W5_v3 : W5 m ρ c (Proc.devRef .tc main_v3) = val_main_v3 (F := Ideal) (arg m c main_arg11) := by
  refine Eq.trans ?_ (W1_v3 m ρ c); carry
theorem W5_v25 : W5 m ρ c (Proc.devRef .tc main_v25) = val_main_v26 (F := Ideal) (arg m c main_arg11) := by
  refine Eq.trans ?_ (W1_v25 m ρ c); carry
theorem W5_v26 : W5 m ρ c (Proc.devRef .tc main_v26) = val_main_v40 (F := Ideal) (arg m c main_arg11) := by
  refine Eq.trans ?_ (W1_v26 m ρ c); carry
theorem W5_arg4 : W5 m ρ c (Proc.devRef .tc main_arg4) = (arg m c main_arg4) := by
  carry

theorem W6_v64 : W6 m ρ c (Proc.devRef .tc main_v64) = val_main_v89 (F := Ideal) (arg m c main_arg0) (arg m c main_arg1) (arg m c main_arg2) (arg m c main_arg3) (arg m c main_arg11) := by
  show StableHlo.after (hostOps3 (F := Ideal)) (W5 m ρ c) (Proc.devRef .tc main_v64) = _
  after_results_simp
  rw [W5_v47 m ρ c, W5_v1 m ρ c, W5_v3 m ρ c, W5_v25 m ρ c, W5_v26 m ρ c]
  rfl
theorem W6_v65 : W6 m ρ c (Proc.devRef .tc main_v65) = val_main_v90 (F := Ideal) (arg m c main_arg4) := by
  show StableHlo.after (hostOps3 (F := Ideal)) (W5 m ρ c) (Proc.devRef .tc main_v65) = _
  after_results_simp
  rw [W5_arg4 m ρ c]
  exact row_of_vec128 _
theorem W7_v66 : W7 m ρ c (Proc.devRef .tc main_v66) = val_main_v93 (F := Ideal) (arg m c main_arg0) (arg m c main_arg1) (arg m c main_arg2) (arg m c main_arg3) (arg m c main_arg4) (arg m c main_arg11) := by
  refine (W7_arr m ρ c 2).trans ?_
  rw [arr_out3 (F := Ideal) (V6 m ρ) c]
  rw [show V6 m ρ c main_v64 = _ from W6_v64 m ρ c, show V6 m ρ c main_v65 = _ from W6_v65 m ρ c]
  rfl

theorem W7_arg5 : W7 m ρ c (Proc.devRef .tc main_arg5) = (arg m c main_arg5) := by
  carry
theorem W8_v67 : W8 m ρ c (Proc.devRef .tc main_v67) = val_main_v94 (F := Ideal) (arg m c main_arg0) (arg m c main_arg1) (arg m c main_arg2) (arg m c main_arg3) (arg m c main_arg4) (arg m c main_arg5) (arg m c main_arg11) := by
  refine (W8_arr m ρ c 2).trans ?_
  rw [arr_out4 (V7 m ρ) c]
  rw [show V7 m ρ c main_v66 = _ from W7_v66 m ρ c, show V7 m ρ c main_arg5 = _ from W7_arg5 m ρ c]
  rfl
theorem W8_v1 : W8 m ρ c (Proc.devRef .tc main_v1) = val_main_v1 (F := Ideal) (arg m c main_arg11) := by
  refine Eq.trans ?_ (W1_v1 m ρ c); carry
theorem W8_v3 : W8 m ρ c (Proc.devRef .tc main_v3) = val_main_v3 (F := Ideal) (arg m c main_arg11) := by
  refine Eq.trans ?_ (W1_v3 m ρ c); carry
theorem W8_v25 : W8 m ρ c (Proc.devRef .tc main_v25) = val_main_v26 (F := Ideal) (arg m c main_arg11) := by
  refine Eq.trans ?_ (W1_v25 m ρ c); carry
theorem W8_v26 : W8 m ρ c (Proc.devRef .tc main_v26) = val_main_v40 (F := Ideal) (arg m c main_arg11) := by
  refine Eq.trans ?_ (W1_v26 m ρ c); carry
theorem W8_arg6 : W8 m ρ c (Proc.devRef .tc main_arg6) = (arg m c main_arg6) := by
  carry

theorem W9_v84 : W9 m ρ c (Proc.devRef .tc main_v84) = val_main_v134 (F := Ideal) (arg m c main_arg0) (arg m c main_arg1) (arg m c main_arg2) (arg m c main_arg3) (arg m c main_arg4) (arg m c main_arg5) (arg m c main_arg11) := by
  show StableHlo.after (hostOps5 (F := Ideal)) (W8 m ρ c) (Proc.devRef .tc main_v84) = _
  after_results_simp
  rw [W8_v67 m ρ c, W8_v1 m ρ c, W8_v3 m ρ c, W8_v25 m ρ c, W8_v26 m ρ c]
  rfl
theorem W9_v85 : W9 m ρ c (Proc.devRef .tc main_v85) = val_main_v135 (F := Ideal) (arg m c main_arg6) := by
  show StableHlo.after (hostOps5 (F := Ideal)) (W8 m ρ c) (Proc.devRef .tc main_v85) = _
  after_results_simp
  rw [W8_arg6 m ρ c]
  exact row_of_vec128 _
theorem W10_v86 : W10 m ρ c (Proc.devRef .tc main_v86) = val_main_v137 (F := Ideal) (arg m c main_arg0) (arg m c main_arg1) (arg m c main_arg2) (arg m c main_arg3) (arg m c main_arg4) (arg m c main_arg5) (arg m c main_arg6) (arg m c main_arg11) := by
  refine (W10_arr m ρ c 2).trans ?_
  rw [arr_out5 (F := Ideal) (V9 m ρ) c]
  rw [show V9 m ρ c main_v84 = _ from W9_v84 m ρ c, show V9 m ρ c main_v85 = _ from W9_v85 m ρ c]
  rfl

theorem W10_arg12 : W10 m ρ c (Proc.devRef .tc main_arg12) = (arg m c main_arg12) := by
  carry
theorem W10_arg8 : W10 m ρ c (Proc.devRef .tc main_arg8) = (arg m c main_arg8) := by
  carry
theorem W10_arg10 : W10 m ρ c (Proc.devRef .tc main_arg10) = (arg m c main_arg10) := by
  carry
theorem W11_arg7 : W11 m ρ c (Proc.devRef .tc main_arg7) = (arg m c main_arg7) := by
  carry
theorem W11_arg9 : W11 m ρ c (Proc.devRef .tc main_arg9) = (arg m c main_arg9) := by
  carry

theorem W11_v86 : W11 m ρ c (Proc.devRef .tc main_v86) = val_main_v137 (F := Ideal) (arg m c main_arg0) (arg m c main_arg1) (arg m c main_arg2) (arg m c main_arg3) (arg m c main_arg4) (arg m c main_arg5) (arg m c main_arg6) (arg m c main_arg11) := by
  refine Eq.trans ?_ (W10_v86 m ρ c); carry
theorem W11_v87 : W11 m ρ c (Proc.devRef .tc main_v87) = val_main_v139 (F := Ideal) (arg m c main_arg12) := by
  show StableHlo.after (hostOps6 (F := Ideal)) (W10 m ρ c) (Proc.devRef .tc main_v87) = _
  after_results_simp
  rw [W10_arg12 m ρ c]
  exact col_of_vec100000 _
theorem W11_v88 : W11 m ρ c (Proc.devRef .tc main_v88) = val_main_v151 (F := Ideal) (arg m c main_arg8) := by
  show StableHlo.after (hostOps6 (F := Ideal)) (W10 m ρ c) (Proc.devRef .tc main_v88) = _
  after_results_simp
  rw [W10_arg8 m ρ c]
  exact row_of_vec128 _
theorem W11_v89 : W11 m ρ c (Proc.devRef .tc main_v89) = val_main_v156 (F := Ideal) (arg m c main_arg10) := by
  show StableHlo.after (hostOps6 (F := Ideal)) (W10 m ρ c) (Proc.devRef .tc main_v89) = _
  after_results_simp
  rw [W10_arg10 m ρ c]
  exact row_of_vec4 _

theorem result_eq : W12 m ρ c (Proc.devRef .tc main_v90) = val_main_v158 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  refine (W12_arr m ρ c 6).trans ?_
  rw [arr_out6 (V11 m ρ) c]
  rw [show V11 m ρ c main_v86 = _ from W11_v86 m ρ c, show V11 m ρ c main_v87 = _ from W11_v87 m ρ c,
    show V11 m ρ c main_arg7 = _ from W11_arg7 m ρ c, show V11 m ρ c main_v88 = _ from W11_v88 m ρ c,
    show V11 m ρ c main_arg9 = _ from W11_arg9 m ρ c, show V11 m ρ c main_v89 = _ from W11_v89 m ρ c]
  rw [poolOut_eq_refTail]
  rfl

end Cert.KernelIdeal.Val

end
-- ==== Proof.lean ====
/- Three graph-convolution layers, mean pooling and a two-layer head, as seven tiled kernels among gather and
   scatter-add host stretches, against the plain reference: the frames of the three programs, and the equality of the
   two idealized results over the extended reals. -/
import proofs.«423718_j22230750724496_1_alg».proof.Defs
import proofs.«423718_j22230750724496_1_alg».proof.Proof.Gen.Kernel
import proofs.«423718_j22230750724496_1_alg».proof.Proof.Gen.KernelIdeal
import proofs.«423718_j22230750724496_1_alg».proof.Proof.Gen.ReferenceIdeal
import proofs.«423718_j22230750724496_1_alg».proof.Proof.Gen.Pre_finite_inputs
import proofs.«423718_j22230750724496_1_alg».proof.Proof.Gen.ReferenceIdeal.Run
import proofs.«423718_j22230750724496_1_alg».proof.Proof.FrB.Run
import proofs.«423718_j22230750724496_1_alg».proof.Proof.FrI.Run
import proofs.«423718_j22230750724496_1_alg».proof.Proof.Val.Chain

noncomputable section

namespace Cert.Proof

open Idealize.ShloMosaic Idealize.SL.Sem

theorem frame_k : Cert.frame_Kernel := fun m ρ _ =>
  (θ_run Cert.Kernel.defs _ _).mono (fun _ h c => (h c).2) (Cert.Kernel.FrB.run_value m ρ)

theorem frame_ki : Cert.frame_KernelIdeal := fun m ρ _ =>
  (θ_run Cert.KernelIdeal.defs _ _).mono (fun _ h c => (h c).2) (Cert.KernelIdeal.FrI.run_value m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.FrI.W12 m ρ c (Proc.devRef .tc Cert.KernelIdeal.main_v90), Cert.KernelIdeal.FrI.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v158_eq, h0, h1, h2, h3, h4, h5, h6, h7, h8, h9, h10, h11, h12]
  exact (Cert.KernelIdeal.Val.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
